-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1 : Shape := ⟨1, ![1]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S8192 : S_.BroadcastsInDim S8192 (![] : Fin 0 → Fin S8192.rank)
  reducesTo_S8192_S_d0 : S8192.ReducesTo [0] S_

variable [Facts]

def fn_part3 {F : FTy → Type} [FloatOps F] (main_arg11 : FVec F S1 .f32) (main_arg12 : FVec F S8192 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S8192 .f32 := Host.absf main_arg12
  let main_cst_22 : FVec F S_ .f32 := constant S_ .f32 0x7F800000#32
  let main_v60 : FVec F S8192 .f32 := broadcastInDim S8192 ![] bcast_S_S8192 main_cst_22
  let main_v61 : IVec S8192 1 := cmpf .olt main_v59 main_v60
  let main_c_23 : IVec S_ 1 := constantI S_ 1 1#1
  let main_v62 : IVec S_ 1 := (fun x v => Host.reduce IntOp.andi x v reducesTo_S8192_S_d0 h_S_) main_v61 main_c_23
  let main_v63 : IVec S_ 1 := andi main_v58 main_v62
  main_v63

def fn_part2 {F : FTy → Type} [FloatOps F] (main_arg7 : FVec F S1 .f32) (main_arg8 : FVec F S1 .f32) (main_arg9 : FVec F S1 .f32) (main_arg10 : FVec F S1 .f32) (main_arg11 : FVec F S1 .f32) (main_arg12 : FVec F S8192 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_arg11 main_arg12 main_v48 main_v49 main_v50

def fn_part1 {F : FTy → Type} [FloatOps F] (main_arg4 : FVec F S128x64 .f32) (main_arg5 : FVec F S64 .f32) (main_arg6 : FVec F S1 .f32) (main_arg7 : FVec F S1 .f32) (main_arg8 : FVec F S1 .f32) (main_arg9 : FVec F S1 .f32) (main_arg10 : FVec F S1 .f32) (main_arg11 : FVec F S1 .f32) (main_arg12 : FVec F S8192 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x256 .f32) (main_arg1 : FVec F S8192x8192 .f32) (main_arg2 : FVec F S256x128 .f32) (main_arg3 : FVec F S128 .f32) (main_arg4 : FVec F S128x64 .f32) (main_arg5 : FVec F S64 .f32) (main_arg6 : FVec F S1 .f32) (main_arg7 : FVec F S1 .f32) (main_arg8 : FVec F S1 .f32) (main_arg9 : FVec F S1 .f32) (main_arg10 : FVec F S1 .f32) (main_arg11 : FVec F S1 .f32) (main_arg12 : FVec F S8192 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1 : Shape := ⟨1, ![1]⟩
abbrev S8192 : Shape := ⟨1, ![8192]⟩
abbrev S8192x1 : Shape := ⟨2, ![8192, 1]⟩
abbrev S1024x2048 : Shape := ⟨2, ![1024, 2048]⟩
abbrev S1024x1 : Shape := ⟨2, ![1024, 1]⟩
abbrev S1024 : Shape := ⟨1, ![1024]⟩
abbrev S_ : Shape := ⟨0, ![]⟩
abbrev S8192x128 : Shape := ⟨2, ![8192, 128]⟩
abbrev S2048x2048 : Shape := ⟨2, ![2048, 2048]⟩
abbrev S2048x128 : Shape := ⟨2, ![2048, 128]⟩
abbrev S2048x1 : Shape := ⟨2, ![2048, 1]⟩
abbrev S1x128 : Shape := ⟨2, ![1, 128]⟩
abbrev S8192x64 : Shape := ⟨2, ![8192, 64]⟩
abbrev S2048x64 : Shape := ⟨2, ![2048, 64]⟩
abbrev S1x64 : Shape := ⟨2, ![1, 64]⟩

abbrev nBuf : Space → Nat
  | .hbm => 76
  | .vmem => 33
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S8192, .f32⟩
  | .hbm, ⟨13, _⟩ => ⟨S8192x8192, .bf16⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x128, .f32⟩
  | .hbm, ⟨43, _⟩ => ⟨S8192x128, .f32⟩
  | .hbm, ⟨44, _⟩ => ⟨S8192x128, .f32⟩
  | .hbm, ⟨45, _⟩ => ⟨S8192x128, .bf16⟩
  | .hbm, ⟨46, _⟩ => ⟨S8192x128, .f32⟩
  | .hbm, ⟨47, _⟩ => ⟨S1x128, .f32⟩
  | .hbm, ⟨48, _⟩ => ⟨S8192x128, .f32⟩
  | .hbm, ⟨49, _⟩ => ⟨S8192x128, .f32⟩
  | .hbm, ⟨50, _⟩ => ⟨S_, .f32⟩
  | .hbm, ⟨51, _⟩ => ⟨S8192x128, .f32⟩
  | .hbm, ⟨52, _⟩ => ⟨S8192x128, .f32⟩
  | .hbm, ⟨53, _⟩ => ⟨S8192x64, .f32⟩
  | .hbm, ⟨54, _⟩ => ⟨S8192x64, .f32⟩
  | .hbm, ⟨55, _⟩ => ⟨S8192x64, .f32⟩
  | .hbm, ⟨56, _⟩ => ⟨S8192x64, .bf16⟩
  | .hbm, ⟨57, _⟩ => ⟨S8192x64, .f32⟩
  | .hbm, ⟨58, _⟩ => ⟨S1x64, .f32⟩
  | .hbm, ⟨59, _⟩ => ⟨S8192x64, .f32⟩
  | .hbm, ⟨60, _⟩ => ⟨S8192x64, .f32⟩
  | .hbm, ⟨61, _⟩ => ⟨S_, .f32⟩
  | .hbm, ⟨62, _⟩ => ⟨S8192, .f32⟩
  | .hbm, ⟨63, _⟩ => ⟨S_, .f32⟩
  | .hbm, ⟨64, _⟩ => ⟨S8192, .f32⟩
  | .hbm, ⟨65, _⟩ => ⟨S8192, .f32⟩
  | .hbm, ⟨66, _⟩ => ⟨S8192x1, .f32⟩
  | .hbm, ⟨67, _⟩ => ⟨S8192x64, .f32⟩
  | .hbm, ⟨68, _⟩ => ⟨S8192x64, .f32⟩
  | .hbm, ⟨69, _⟩ => ⟨S8192x64, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1, .f32⟩
  | .hbm, ⟨74, _⟩ => ⟨S8192x64, .f32⟩
  | .hbm, ⟨75, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S2048x2048, .bf16⟩
  | .local _ .vmem, ⟨8, _⟩ => ⟨S2048x2048, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .f32⟩
  | .local _ .vmem, ⟨12, _⟩ => ⟨S2048x128, .f32⟩
  | .local _ .vmem, ⟨13, _⟩ => ⟨S2048x1, .f32⟩
  | .local _ .vmem, ⟨14, _⟩ => ⟨S2048x1, .f32⟩
  | .local _ .vmem, ⟨15, _⟩ => ⟨S2048x1, .f32⟩
  | .local _ .vmem, ⟨16, _⟩ => ⟨S2048x1, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x2048, .bf16⟩
  | .local _ .vmem, ⟨21, _⟩ => ⟨S2048x2048, .bf16⟩
  | .local _ .vmem, ⟨22, _⟩ => ⟨S2048x64, .bf16⟩
  | .local _ .vmem, ⟨23, _⟩ => ⟨S2048x64, .bf16⟩
  | .local _ .vmem, ⟨24, _⟩ => ⟨S2048x64, .f32⟩
  | .local _ .vmem, ⟨25, _⟩ => ⟨S2048x64, .f32⟩
  | .local _ .vmem, ⟨26, _⟩ => ⟨S2048x1, .f32⟩
  | .local _ .vmem, ⟨27, _⟩ => ⟨S2048x1, .f32⟩
  | .local _ .vmem, ⟨28, _⟩ => ⟨S2048x1, .f32⟩
  | .local _ .vmem, ⟨29, _⟩ => ⟨S2048x1, .f32⟩
  | .local _ .vmem, ⟨30, _⟩ => ⟨S2048x64, .f32⟩
  | .local _ .vmem, ⟨31, _⟩ => ⟨S2048x64, .f32⟩
  | .local _ .vmem, ⟨32, _⟩ => ⟨S2048x64, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_cst : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call1_cst : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_cst_1 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_v45 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  reduces_S1024x2048_S1024 : S1024x2048.Reduces [1] S1024
  shapeCasts_S1024_S1024x1 : S1024.ShapeCasts S1024x1
  bcast_S8192_S8192x1_0 : S8192.BroadcastsInDim S8192x1 (![0] : Fin 1 → Fin S8192x1.rank)
  shapeCasts_S1_S_ : S1.ShapeCasts S_
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S8192x1_S8192x64_0_1 : S8192x1.BroadcastsInDim S8192x64 (![0, 1] : Fin 2 → Fin S8192x64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S2048x1_S2048x64 : S2048x1.Broadcasts S2048x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S_S8192 : S_.BroadcastsInDim S8192 (![] : Fin 0 → Fin S8192.rank)
  dot_S8192x256_S256x128_S8192x128_1_0_0_1_n_n_wf : DotDims.WF S8192x256 S256x128 S8192x128 [1] [0] [0] [1] [] []
  dot_S2048x2048_S2048x128_S2048x128_1_0_0_1_n_n_wf : DotDims.WF S2048x2048 S2048x128 S2048x128 [1] [0] [0] [1] [] []
  dot_S8192x128_S128x64_S8192x64_1_0_0_1_n_n_wf : DotDims.WF S8192x128 S128x64 S8192x64 [1] [0] [0] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .bf16 = 32 ∨ (Rect.block (s := S8192x8192) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .bf16 = 32 ∨ (Rect.block (s := S8192x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S8192x128.size a
  hwx1_2 : ∀ i : grid1.Coords, EltTy.bits .f32 = 32 ∨ (Rect.block (s := S8192x128) S2048x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S8192x1.size a
  hwx1_3 : ∀ i : grid1.Coords, EltTy.bits .f32 = 32 ∨ (Rect.block (s := S8192x1) S2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S8192x1.size a
  hwx1_4 : ∀ i : grid1.Coords, EltTy.bits .f32 = 32 ∨ (Rect.block (s := S8192x1) S2048x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x128.size a ≤ S8192x128.size a
  hwx1_5 : ∀ i : grid1.Coords, EltTy.bits .f32 = 32 ∨ (Rect.block (s := S8192x128) S2048x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .bf16 = 32 ∨ (Rect.block (s := S8192x64) S2048x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S8192x64.size a
  hwx2_2 : ∀ i : grid2.Coords, EltTy.bits .f32 = 32 ∨ (Rect.block (s := S8192x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S8192x1.size a
  hwx2_3 : ∀ i : grid2.Coords, EltTy.bits .f32 = 32 ∨ (Rect.block (s := S8192x1) S2048x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S8192x1.size a
  hwx2_4 : ∀ i : grid2.Coords, EltTy.bits .f32 = 32 ∨ (Rect.block (s := S8192x1) S2048x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S8192x64.size a
  hwx2_5 : ∀ i : grid2.Coords, EltTy.bits .f32 = 32 ∨ (Rect.block (s := S8192x64) S2048x64.size (cc2_transform_5 i) (hinb2_5 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0_0) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2048x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S2048x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2048x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v0_0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2048x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v27) S2048x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41) S2048x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1 : Shape := ⟨1, ![1]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1x8192 : Shape := ⟨2, ![1, 8192]⟩
abbrev S8192x128 : Shape := ⟨2, ![8192, 128]⟩
abbrev S1x128 : Shape := ⟨2, ![1, 128]⟩
abbrev S8192x64 : Shape := ⟨2, ![8192, 64]⟩
abbrev S1x64 : Shape := ⟨2, ![1, 64]⟩

abbrev nBuf : Space → Nat
  | .hbm => 104
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S8192, .f32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i1⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192, .i32⟩
  | .hbm, ⟨28, _⟩ => ⟨S8192x1, .i32⟩
  | .hbm, ⟨29, _⟩ => ⟨S8192x1, .i32⟩
  | .hbm, ⟨30, _⟩ => ⟨S8192x2, .i32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S8192x1, .f32⟩
  | .hbm, ⟨44, _⟩ => ⟨S8192x8192, .f32⟩
  | .hbm, ⟨45, _⟩ => ⟨S8192x8192, .f32⟩
  | .hbm, ⟨46, _⟩ => ⟨S1x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .i32⟩
  | .hbm, ⟨59, _⟩ => ⟨S8192, .i32⟩
  | .hbm, ⟨60, _⟩ => ⟨S8192, .i1⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x1, .i32⟩
  | .hbm, ⟨74, _⟩ => ⟨S8192x2, .i32⟩
  | .hbm, ⟨75, _⟩ => ⟨S8192x8192, .f32⟩
  | .hbm, ⟨76, _⟩ => ⟨S8192x128, .f32⟩
  | .hbm, ⟨77, _⟩ => ⟨S8192x128, .f32⟩
  | .hbm, ⟨78, _⟩ => ⟨S1x128, .f32⟩
  | .hbm, ⟨79, _⟩ => ⟨S8192x128, .f32⟩
  | .hbm, ⟨80, _⟩ => ⟨S8192x128, .f32⟩
  | .hbm, ⟨81, _⟩ => ⟨S_, .f32⟩
  | .hbm, ⟨82, _⟩ => ⟨S8192x128, .f32⟩
  | .hbm, ⟨83, _⟩ => ⟨S8192x128, .f32⟩
  | .hbm, ⟨84, _⟩ => ⟨S8192x64, .f32⟩
  | .hbm, ⟨85, _⟩ => ⟨S8192x64, .f32⟩
  | .hbm, ⟨86, _⟩ => ⟨S1x64, .f32⟩
  | .hbm, ⟨87, _⟩ => ⟨S8192x64, .f32⟩
  | .hbm, ⟨88, _⟩ => ⟨S8192x64, .f32⟩
  | .hbm, ⟨89, _⟩ => ⟨S_, .f32⟩
  | .hbm, ⟨90, _⟩ => ⟨S8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192x1, .f32⟩
  | .hbm, ⟨95, _⟩ => ⟨S8192x64, .f32⟩
  | .hbm, ⟨96, _⟩ => ⟨S8192x64, .f32⟩
  | .hbm, ⟨97, _⟩ => ⟨S8192x64, .f32⟩
  | .hbm, ⟨98, _⟩ => ⟨S_, .f32⟩
  | .hbm, ⟨99, _⟩ => ⟨S8192, .f32⟩
  | .hbm, ⟨100, _⟩ => ⟨S8192x1, .f32⟩
  | .hbm, ⟨101, _⟩ => ⟨S8192x1, .f32⟩
  | .hbm, ⟨102, _⟩ => ⟨S8192x64, .f32⟩
  | .hbm, ⟨103, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_c_2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_3 : Ref sig .tc := ⟨.hbm, 58, rfl⟩
abbrev main_v40 : Ref sig .tc := ⟨.hbm, 59, rfl⟩
abbrev main_v41 : Ref sig .tc := ⟨.hbm, 60, rfl⟩
abbrev main_c_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_5 : Ref sig .tc := ⟨.hbm, 65, rfl⟩
abbrev main_v45 : Ref sig .tc := ⟨.hbm, 66, rfl⟩
abbrev main_v46 : Ref sig .tc := ⟨.hbm, 67, rfl⟩
abbrev main_c_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call0_cst : Ref sig .tc := ⟨.hbm, 81, rfl⟩
abbrev main_call0_v0 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_call1_cst_0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_call1_v5 : Ref sig .tc := ⟨.hbm, 96, rfl⟩
abbrev main_call1_v6 : Ref sig .tc := ⟨.hbm, 97, rfl⟩
abbrev main_call1_cst_1 : Ref sig .tc := ⟨.hbm, 98, rfl⟩
abbrev main_call1_v7 : Ref sig .tc := ⟨.hbm, 99, rfl⟩
abbrev main_call1_v8 : Ref sig .tc := ⟨.hbm, 100, rfl⟩
abbrev main_call1_v9 : Ref sig .tc := ⟨.hbm, 101, rfl⟩
abbrev main_call1_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  h_S_ : 0 < S_.numel
  shapeCasts_S1_S_ : S1.ShapeCasts S_
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  bcast_S8192x1_S8192x64_0_1 : S8192x1.BroadcastsInDim S8192x64 (![0, 1] : Fin 2 → Fin S8192x64.rank)
  scatter_S8192x8192_S8192x2_S8192_n_01_01_1_wf : ScatterDims.WF S8192x8192 S8192x2 S8192 [] [0, 1] [0, 1] 1
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []

variable [Facts₀]

def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KRegion0.lean ====
import proofs.«159937_j69277822484503_1_alg».proof.Proof.Gen.Kernel.Launch
import proofs.«159937_j69277822484503_1_alg».proof.Proof.Gen.Kernel.Skeleton
import proofs.«159937_j69277822484503_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 := by decide +kernel

abbrev cond0_1 (i : grid0.Coords) : Prop := k0_cond2 i = 1#1
theorem hcond0_1 : ∀ t : Fin cfg0.N, cond0_1 (grid0.coords t) ↔ t.val % 4 = 3 := by decide +kernel

theorem liveAt0 : ∀ t : Fin cfg0.N, cfg0.idle 0 (grid0.coords t) = false ∧ cfg0.idle 1 (grid0.coords t) = false ∧ (t.val % 4 = 3 → cfg0.idle 2 (grid0.coords t) = false) := by decide +kernel
theorem idleAt0_2 : ∀ t : Fin cfg0.N, t.val % 4 ≠ 3 → cfg0.idle 2 (grid0.coords t) = true ∧ (cfg0.win 2).flush t = false := by decide +kernel

abbrev ms0_0 (t : Fin cfg0.N) : Memref sig .tc .vmem S1024x2048 .f32 := win0_0.stage (cfg0.slots t 0)
abbrev ms0_1 (t : Fin cfg0.N) : Memref sig .tc .vmem S1024x2048 .bf16 := win0_1.stage (cfg0.slots t 1)
abbrev ms0_2 (t : Fin cfg0.N) : Memref sig .tc .vmem S1024x1 .f32 := win0_2.stage (cfg0.slots t 2)
abbrev scM0_0 : Memref sig .tc .vmem S1024x1 .f32 := Memref.whole cc0_scratch0

abbrev own0 (c : Dev nD) {S : Shape} {e : EltTy} (m : Memref sig .tc .vmem S e) (x : Vec F S e) : sProp 𝕄 :=
  owns (c : Thread nD τ) m fullShare x

abbrev rest0 (c : Dev nD) : sProp 𝕄 :=
  Pipeline.scopedRestBut spec0 c [cc0_scratch0]

theorem PhiA0_eq (c : Dev nD) :
    (Pipeline.ΦA spec0 c : sProp 𝕄)
      = iprop(iprop((∃ d, own0 c scM0_0 d) ∗ rest0 c) ∗ (∃ r, prngReg c r)) := by
  unfold Pipeline.ΦA; rw [scopedRest0_split]; simp only [own0, scM0_0, owns_whole]; try rfl

section
variable (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole) (x0 : Vec F S1024x2048 .f32) (xs0 : Vec F S1024x1 .f32)

private theorem zero_off0 : (![0, 0] : Fin 2 → Nat) = fun _ => 0 := funext fun a => by fin_cases a <;> rfl

-- One run of the body in each control case (k = 0, k = 1 or 2, k = 3): the row sum starts from `s`, the third buffer ends at `y4`.
theorem run0 (x4 y4 s : Vec F S1024x1 .f32)
    (h : cond0_0 i ∧ ¬cond0_1 i ∧ s = k0_pay1 ∧ y4 = x4 ∨ ¬cond0_0 i ∧ ¬cond0_1 i ∧ s = xs0 ∧ y4 = x4 ∨ ¬cond0_0 i ∧ cond0_1 i ∧ s = xs0 ∧ y4 = k0_pay3 x0 xs0)
    (E : Set ℕ) (K : PUnit → sProp 𝕄) :
    iprop(own0 c arg2 x0 ∗ (∃ d, own0 c arg3 d) ∗ own0 c arg4 x4 ∗ own0 c arg5 xs0
        ∗ (iprop(own0 c arg2 x0 ∗ own0 c arg3 (k0_pay2 x0) ∗ own0 c arg4 y4 ∗ own0 c arg5 (k0_pay3 x0 s)) -∗ K ⟨⟩))
      ⊢ wp frame (wpE (defs₀ (F := F)) Variants.none c none) E (cc0__cast_rowsum_kernel i arg2 harg2 arg3 harg3 arg4 harg4 arg5 harg5) K := by
  simp only [cc0__cast_rowsum_kernel_eq_skeleton]; unfold cc0__cast_rowsum_kernel_skel
  unfold own0 owns
  iintro ⟨⟨%f0, %hf0, H0⟩, ⟨%d1, %f1, -, H1⟩, ⟨%f2, %hf2, H2⟩, ⟨%fs0, %hfs0, HS0⟩, Hk⟩
  obtain rfl := harg2.eq_unread hf0; obtain rfl := harg4.eq_unread hf2; obtain rfl := harg5.eq_unread hfs0
  obtain ⟨hc0, hc1, rfl, rfl⟩ | ⟨hc0, hc1, rfl, rfl⟩ | ⟨hc0, hc1, rfl, rfl⟩ := h
  all_goals
    sl_exec (disch := first | exact hc0 | exact hc1)
    sl_step
    iapply Hk
    isplitl [H0]
    on_goal 2 => isplitl [H1]
    on_goal 3 => isplitl [H2]
    all_goals
      iexists _; isplitr
      swap; · first | iexact H0 | iexact H1 | iexact H2 | iexact HS0
      ipureintro
      first
      | exact (View.read_writes_eq_canon _ _ _ (View.cover_of_tiledL _ (Shape.size _) (by sl_kernel_rfl))).trans (by
          sl_unfold_words
          rw [View.canon_cons_unit_zero zero_off0]
          simp only [View.readCov_unit_zero (S := S1024x1) _ zero_off0, View.readAt_eq_ld, harg2.read_unread, harg5.read_unread, View.ld_unit_zero (S := S1024x2048) zero_off0, View.ld_unit_zero (S := S1024x1) zero_off0])
      | exact harg2.read_unread _
      | exact harg4.read_unread _

end

-- The running row sum after point `n`, started again from zero where `n % 4 = 0`.
def acc0 (c : Dev nD) : (n : ℕ) → n < cfg0.N → Vec F S1024x1 .f32
  | 0, hn => k0_pay3 (iblk0 V c 0 ⟨0, hn⟩) (k0_pay1 (F := F))
  | n + 1, hn => k0_pay3 (iblk0 V c 0 ⟨n + 1, hn⟩) (if (n + 1) % 4 = 0 then k0_pay1 (F := F) else acc0 c n (Nat.lt_of_succ_lt hn))

def outsAt0 (c : Dev nD) : (n : ℕ) → n < cfg0.N → Vec F S1024x2048 .bf16 × Vec F S1024x1 .f32 × Vec F S1024x1 .f32 :=
  fun n hn => (k0_pay2 (iblk0 V c 0 ⟨n, hn⟩), acc0 V c n hn, acc0 V c n hn)

theorem outsAt0_bf (c : Dev nD) (t : Fin cfg0.N) : (outsAt0 V c t.val t.isLt).1 = k0_pay2 (iblk0 V c 0 t) := rfl

theorem outsAt0_acc_first (c : Dev nD) (t : Fin cfg0.N) (h : t.val % 4 = 0) :
    (outsAt0 V c t.val t.isLt).2.2 = k0_pay3 (iblk0 V c 0 t) (k0_pay1 (F := F)) := by
  obtain ⟨_ | n, hn⟩ := t
  · rfl
  · show k0_pay3 _ (if (n + 1) % 4 = 0 then _ else _) = _
    rw [if_pos h]

theorem outsAt0_acc_next (c : Dev nD) (t : Fin cfg0.N) (h : t.val % 4 ≠ 0) :
    (outsAt0 V c t.val t.isLt).2.2 = k0_pay3 (iblk0 V c 0 t) (outsAt0 V c (t.val - 1) (Nat.lt_of_le_of_lt (Nat.sub_le _ _) t.isLt)).2.2 := by
  obtain ⟨_ | n, hn⟩ := t
  · exact absurd (Nat.zero_mod 4) h
  · show k0_pay3 _ (if (n + 1) % 4 = 0 then _ else _) = _
    rw [if_neg h]; rfl

theorem outsAt0_out_last (c : Dev nD) (t : Fin cfg0.N) (h : t.val % 4 = 3) :
    (outsAt0 V c t.val t.isLt).2.1 = (outsAt0 V c t.val t.isLt).2.2 := rfl

-- Before point `n` the scratch column holds the sum the point before left; before the first point, anything.
def PhiS0 (c : Dev nD) : (n : ℕ) → n ≤ cfg0.N → sProp 𝕄
  | 0, _ => Pipeline.ΦA spec0 c
  | n + 1, hn => iprop(iprop(own0 c scM0_0 ((outsAt0 V c n hn).2.2) ∗ rest0 c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem Phi0_pos (c : Dev nD) : ∀ (t : Fin cfg0.N) (hz : t.val ≠ 0), (dat0 V c).Φ t.castSucc
    = iprop(iprop(own0 c scM0_0 ((outsAt0 V c (t.val - 1) (Nat.lt_of_le_of_lt (Nat.sub_le _ _) t.isLt)).2.2) ∗ rest0 c) ∗ (∃ r, prngReg c r))
  | ⟨0, _⟩, hz => absurd rfl hz
  | ⟨n + 1, _⟩, _ => rfl

theorem after0_0 (c : Dev nD) (t : Fin cfg0.N) : (dat0 V c).after 0 t = iblk0 V c 0 t := rfl
theorem after0_1 (c : Dev nD) (t : Fin cfg0.N) : (dat0 V c).after 1 t = (outsAt0 V c t.val t.isLt).1 := rfl
theorem after0_2 (c : Dev nD) (t : Fin cfg0.N) : (dat0 V c).after 2 t = (outsAt0 V c t.val t.isLt).2.1 := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem hin0 (c : Dev nD) : Pipeline.ΦA spec0 c ⊢ (dat0 V c).Φ 0 := by
  rw [show (dat0 V c).Φ 0 = Pipeline.ΦA spec0 c from rfl]

-- Forgetting what the scratch column holds gives the region's own invariant back.
theorem Phi_out0 (c : Dev nD) : ∀ t : Fin (cfg0.N + 1), (dat0 V c).Φ t ⊢ Pipeline.ΦA spec0 c
  | ⟨0, _⟩ => by show Pipeline.ΦA spec0 c ⊢ _; rfl
  | ⟨n + 1, h⟩ => by
    rw [PhiA0_eq]; show iprop(iprop(_ ∗ _) ∗ _) ⊢ _
    iintro ⟨⟨HS0, Hr⟩, Hg⟩
    iframe Hr Hg
    iexists _; iexact HS0

theorem hout0 (c : Dev nD) : (dat0 V c).Φ (Fin.last cfg0.N) ⊢ Pipeline.ΦA spec0 c :=
  Phi_out0 V c _

-- The body at any point, by the point's residue mod 4.
theorem sound_body0 (c : Dev nD) (t : Fin cfg0.N) :
    iprop((dat0 V c).Φ t.castSucc ∗ (dat0 V c).owesAt () t.castSucc
      ∗ (∃ d, own0 c (ms0_0 t) ((dat0 V c).before 0 t d))
      ∗ (∃ d, own0 c (ms0_1 t) ((dat0 V c).before 1 t d))
      ∗ (∃ d, own0 c (ms0_2 t) ((dat0 V c).before 2 t d)))
    ⊢ wp frame (wpE (defs₀ (F := F)) Variants.none c none) Set.univ (bodyAt0 t) (fun _ =>
      iprop(iprop(iprop(own0 c scM0_0 (outsAt0 V c t.val t.isLt).2.2 ∗ rest0 c) ∗ (∃ r, prngReg c r)) ∗ (dat0 V c).owesAt () t.castSucc
        ∗ own0 c (ms0_0 t) (iblk0 V c 0 t) ∗ own0 c (ms0_1 t) (k0_pay2 (iblk0 V c 0 t)) ∗ (dat0 V c).leavesExact 2 t)) := by
  unfold bodyAt0
  simp only [before0_0]
  by_cases h1 : t.val % 4 = 3
  · have h0 : ¬t.val % 4 = 0 := by omega
    have hz : t.val ≠ 0 := by omega
    rw [show (dat0 V c).leavesExact 2 t = own0 c (ms0_2 t) ((dat0 V c).after 2 t) from by
      unfold Dat.leavesExact; rw [(liveAt0 t).2.2 h1], after0_2, outsAt0_out_last V c t h1, outsAt0_acc_next V c t h0]
    rw [Phi0_pos V c t hz]
    iintro ⟨⟨⟨HS0, Hr⟩, Hg⟩, Ho, ⟨%d0, H0⟩, ⟨%d1, H1⟩, ⟨%d2, H2⟩⟩
    iapply (run0 c (grid0.coords t) _ _ _ _ _ _ _ _ (iblk0 V c 0 t) _ _ _ _ (.inr (.inr ⟨mt (hcond0_0 t).mp h0, (hcond0_1 t).mpr h1, rfl, rfl⟩)) Set.univ _)
    iframe H0 H2 HS0
    isplitl [H1]; · iexists _; iexact H1
    iintro ⟨H0, H1, H2, HS0⟩
    iframe
  · rw [Dat.leavesExact_idle (dat0 V c) 2 t (idleAt0_2 t h1).1 (idleAt0_2 t h1).2]
    by_cases h0 : t.val % 4 = 0
    · rw [outsAt0_acc_first V c t h0]
      refine (sep_mono_left (Phi_out0 V c t.castSucc)).trans ?_
      rw [PhiA0_eq]
      iintro ⟨⟨⟨⟨%ds, HS0⟩, Hr⟩, Hg⟩, Ho, ⟨%d0, H0⟩, ⟨%d1, H1⟩, ⟨%d2, H2⟩⟩
      iapply (run0 c (grid0.coords t) _ _ _ _ _ _ _ _ (iblk0 V c 0 t) _ _ _ _ (.inl ⟨(hcond0_0 t).mpr h0, mt (hcond0_1 t).mp h1, rfl, rfl⟩) Set.univ _)
      iframe H0 H2 HS0
      isplitl [H1]; · iexists _; iexact H1
      iintro ⟨H0, H1, H2, HS0⟩
      iframe Hr Hg Ho H0 H1 HS0
      iexists _; iexact H2
    · have hz : t.val ≠ 0 := fun h => h0 (by rw [h])
      rw [outsAt0_acc_next V c t h0, Phi0_pos V c t hz]
      iintro ⟨⟨⟨HS0, Hr⟩, Hg⟩, Ho, ⟨%d0, H0⟩, ⟨%d1, H1⟩, ⟨%d2, H2⟩⟩
      iapply (run0 c (grid0.coords t) _ _ _ _ _ _ _ _ (iblk0 V c 0 t) _ _ _ _ (.inr (.inl ⟨mt (hcond0_0 t).mp h0, mt (hcond0_1 t).mp h1, rfl, rfl⟩)) Set.univ _)
      iframe H0 H2 HS0
      isplitl [H1]; · iexists _; iexact H1
      iintro ⟨H0, H1, H2, HS0⟩
      iframe Hr Hg Ho H0 H1 HS0
      iexists _; iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
import proofs.«159937_j69277822484503_1_alg».proof.Proof.Gen.Kernel.Launch
import proofs.«159937_j69277822484503_1_alg».proof.Proof.Gen.Kernel.Skeleton
import proofs.«159937_j69277822484503_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev Region1.condFirst (i : grid1.Coords) : Prop := (Scalar.cmpi .ne (Scalar.extui (Scalar.cmpi .eq (BitVec.ofNat 32 (i 1).val) 0#32)) 0#32) = 1#1
theorem Region1.hcondFirst : ∀ t : Fin cfg1.N, Region1.condFirst (grid1.coords t) ↔ t.val % 4 = 0 := by decide +kernel

abbrev Region1.condLast (i : grid1.Coords) : Prop := k1_cond2 i = 1#1
theorem Region1.hcondLast : ∀ t : Fin cfg1.N, Region1.condLast (grid1.coords t) ↔ t.val % 4 = 3 := by decide +kernel

theorem Region1.idleAt_5 : ∀ t : Fin cfg1.N, t.val % 4 ≠ 3 → cfg1.idle 5 (grid1.coords t) = true ∧ (cfg1.win 5).flush t = false := by decide +kernel
theorem Region1.liveAt_5 : ∀ t : Fin cfg1.N, t.val % 4 = 3 → cfg1.idle 5 (grid1.coords t) = false := by decide +kernel

abbrev Region1.scM : Memref sig .tc .vmem S2048x128 .f32 := Memref.whole cc1_scratch0

abbrev Region1.own (c : Dev nD) {S : Shape} {e : EltTy} (m : Memref sig .tc .vmem S e) (x : Vec F S e) : sProp 𝕄 :=
  owns (c : Thread nD τ) m fullShare x

abbrev Region1.others (c : Dev nD) : sProp 𝕄 :=
  Pipeline.scopedRestBut spec1 c [cc1_scratch0]

theorem Region1.PhiA_eq (c : Dev nD) :
    (Pipeline.ΦA spec1 c : sProp 𝕄)
      = iprop(iprop((∃ d, Region1.own c Region1.scM d) ∗ Region1.others (F := F) c) ∗ (∃ r, prngReg c r)) := by
  unfold Pipeline.ΦA
  rw [Pipeline.scopedRest_split_of_list spec1 c [cc1_scratch0] (by decide) (by decide)]
  simp only [Region1.own, Region1.scM, owns_whole]; try rfl

section
variable (c : Dev nD) (i : grid1.Coords)
  (arg2 : Memref sig .tc .vmem S2048x2048 .bf16) (harg2 : arg2.IsWhole) (arg3 : Memref sig .tc .vmem S2048x128 .bf16) (harg3 : arg3.IsWhole) (arg4 : Memref sig .tc .vmem S2048x128 .f32) (harg4 : arg4.IsWhole)
  (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole) (arg8 : Memref sig .tc .vmem S2048x128 .f32) (harg8 : arg8.IsWhole)
  (x0 : Vec F S2048x2048 .bf16) (x1 : Vec F S2048x128 .bf16) (x2 : Vec F S2048x128 .f32) (x3 : Vec F S2048x1 .f32) (x4 : Vec F S2048x1 .f32) (xs0 : Vec F S2048x128 .f32)

theorem Region1.zeroOff : (![0, 0] : Fin 2 → Nat) = fun _ => 0 := funext fun a => by fin_cases a <;> rfl

-- One run of the body in each control case (k = 0, k = 1 or 2, k = 3): the sum starts from `s`, the output buffer ends at `y5`.
set_option maxHeartbeats 1000000 in
theorem Region1.run (x5 y5 s : Vec F S2048x128 .f32)
    (h : Region1.condFirst i ∧ ¬Region1.condLast i ∧ s = k1_pay1 ∧ y5 = x5 ∨ ¬Region1.condFirst i ∧ ¬Region1.condLast i ∧ s = xs0 ∧ y5 = x5
      ∨ ¬Region1.condFirst i ∧ Region1.condLast i ∧ s = xs0 ∧ y5 = k1_pay3 x3 (k1_pay2 xs0 x0 x1) x4 x2)
    (E : Set ℕ) (K : PUnit → sProp 𝕄) :
    iprop(Region1.own c arg2 x0 ∗ Region1.own c arg3 x1 ∗ Region1.own c arg4 x2 ∗ Region1.own c arg5 x3 ∗ Region1.own c arg6 x4 ∗ Region1.own c arg7 x5 ∗ Region1.own c arg8 xs0
        ∗ (iprop(Region1.own c arg2 x0 ∗ Region1.own c arg3 x1 ∗ Region1.own c arg4 x2 ∗ Region1.own c arg5 x3 ∗ Region1.own c arg6 x4 ∗ Region1.own c arg7 y5 ∗ Region1.own c arg8 (k1_pay2 s x0 x1)) -∗ K ⟨⟩))
      ⊢ wp frame (wpE (defs₀ (F := F)) Variants.none c none) E (cc1__fused_kernel i arg2 harg2 arg3 harg3 arg4 harg4 arg5 harg5 arg6 harg6 arg7 harg7 arg8 harg8) K := by
  simp only [cc1__fused_kernel_eq_skeleton]; unfold cc1__fused_kernel_skel
  unfold Region1.own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  obtain ⟨hc0, hc1, rfl, rfl⟩ | ⟨hc0, hc1, rfl, rfl⟩ | ⟨hc0, hc1, rfl, rfl⟩ := h
  all_goals
    sl_exec (disch := first | exact hc0 | exact hc1)
    sl_step
    iapply Hk
    isplitl [H0]
    on_goal 2 => isplitl [H1]
    on_goal 3 => isplitl [H2]
    on_goal 4 => isplitl [H3]
    on_goal 5 => isplitl [H4]
    on_goal 6 => isplitl [H5]
    all_goals
      iexists _; isplitr
      swap; · first | iexact H0 | iexact H1 | iexact H2 | iexact H3 | iexact H4 | iexact H5 | iexact HS0
      ipureintro
      first
      | exact (View.read_writes_eq_canon _ _ _ (View.cover_of_tiledL _ (Shape.size _) (by sl_kernel_rfl))).trans (by
          sl_unfold_words
          rw [View.canon_cons_unit_zero Region1.zeroOff]
          simp only [View.readCov_unit_zero (S := S2048x128) _ Region1.zeroOff, View.readAt_eq_ld, harg2.read_unread, harg3.read_unread, harg4.read_unread, harg5.read_unread, harg6.read_unread, harg8.read_unread, View.ld_unit_zero (S := S2048x2048) Region1.zeroOff, View.ld_unit_zero (S := S2048x128) Region1.zeroOff, View.ld_unit_zero (S := S2048x1) Region1.zeroOff])
      | exact Memref.IsWhole.read_unread _ _

end

-- The running sum after point `n`, started again from zero where `n % 4 = 0`.
def Region1.acc (c : Dev nD) : (n : ℕ) → n < cfg1.N → Vec F S2048x128 .f32
  | 0, hn => k1_pay2 (k1_pay1 (F := F)) (iblk1 V c 0 ⟨0, hn⟩) (iblk1 V c 1 ⟨0, hn⟩)
  | n + 1, hn => k1_pay2 (if (n + 1) % 4 = 0 then k1_pay1 (F := F) else Region1.acc c n (Nat.lt_of_succ_lt hn)) (iblk1 V c 0 ⟨n + 1, hn⟩) (iblk1 V c 1 ⟨n + 1, hn⟩)

def outsAt1 (c : Dev nD) : (n : ℕ) → n < cfg1.N → Vec F S2048x128 .f32 × Vec F S2048x128 .f32 :=
  fun n hn => (k1_pay3 (iblk1 V c 3 ⟨n, hn⟩) (Region1.acc V c n hn) (iblk1 V c 4 ⟨n, hn⟩) (iblk1 V c 2 ⟨n, hn⟩), Region1.acc V c n hn)

theorem outsAt1_acc_first (c : Dev nD) (t : Fin cfg1.N) (h : t.val % 4 = 0) :
    (outsAt1 V c t.val t.isLt).2 = k1_pay2 (k1_pay1 (F := F)) (iblk1 V c 0 t) (iblk1 V c 1 t) := by
  obtain ⟨_ | n, hn⟩ := t
  · rfl
  · show k1_pay2 (if (n + 1) % 4 = 0 then _ else _) _ _ = _
    rw [if_pos h]

theorem outsAt1_acc_next (c : Dev nD) (t : Fin cfg1.N) (h : t.val % 4 ≠ 0) :
    (outsAt1 V c t.val t.isLt).2 = k1_pay2 (outsAt1 V c (t.val - 1) (Nat.lt_of_le_of_lt (Nat.sub_le _ _) t.isLt)).2 (iblk1 V c 0 t) (iblk1 V c 1 t) := by
  obtain ⟨_ | n, hn⟩ := t
  · exact absurd (Nat.zero_mod 4) h
  · show k1_pay2 (if (n + 1) % 4 = 0 then _ else _) _ _ = _
    rw [if_neg h]; rfl

theorem outsAt1_out_last (c : Dev nD) (t : Fin cfg1.N) (h : t.val % 4 = 3) :
    (outsAt1 V c t.val t.isLt).1 = k1_pay3 (iblk1 V c 3 t) (outsAt1 V c t.val t.isLt).2 (iblk1 V c 4 t) (iblk1 V c 2 t) := rfl

-- Before point `n` the scratch holds the sum the point before left; before the first point, anything.
def Region1.PhiS (c : Dev nD) : (n : ℕ) → n ≤ cfg1.N → sProp 𝕄
  | 0, _ => Pipeline.ΦA spec1 c
  | n + 1, hn => iprop(iprop(Region1.own c Region1.scM ((outsAt1 V c n hn).2) ∗ Region1.others (F := F) c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := Region1.PhiS V c t.val (Nat.le_of_lt_succ t.isLt)
  q _ := fullShare
  owed _ := 0

theorem A_eq1 (c : Dev nD) (w : Fin cfg1.W) : (dat1 V c).A w = V c (Pipeline.arrRef spec1 w) := rfl

theorem Region1.Phi_pos (c : Dev nD) : ∀ (t : Fin cfg1.N) (hz : t.val ≠ 0), (dat1 V c).Φ t.castSucc
    = iprop(iprop(Region1.own c Region1.scM ((outsAt1 V c (t.val - 1) (Nat.lt_of_le_of_lt (Nat.sub_le _ _) t.isLt)).2) ∗ Region1.others (F := F) c) ∗ (∃ r, prngReg c r))
  | ⟨0, _⟩, hz => absurd rfl hz
  | ⟨n + 1, _⟩, _ => rfl

theorem after1_5 (c : Dev nD) (t : Fin cfg1.N) : (dat1 V c).after 5 t = (outsAt1 V c t.val t.isLt).1 := rfl

theorem hin1 (c : Dev nD) : Pipeline.ΦA spec1 c ⊢ (dat1 V c).Φ 0 :=
  Idealize.SL.BI.Entails.refl _

-- Forgetting what the scratch holds gives the region's own invariant back.
theorem Region1.Phi_out (c : Dev nD) : ∀ t : Fin (cfg1.N + 1), (dat1 V c).Φ t ⊢ Pipeline.ΦA spec1 c
  | ⟨0, _⟩ => by show Pipeline.ΦA spec1 c ⊢ _; rfl
  | ⟨n + 1, h⟩ => by
    rw [Region1.PhiA_eq]; show iprop(iprop(_ ∗ _) ∗ _) ⊢ _
    iintro ⟨⟨HS0, HR⟩, Hg⟩
    iframe HR Hg
    iexists _; iexact HS0

theorem hout1 (c : Dev nD) : (dat1 V c).Φ (Fin.last cfg1.N) ⊢ Pipeline.ΦA spec1 c :=
  Region1.Phi_out V c _

-- The body at any point, by the point's residue mod 4.
theorem Region1.sound_body (c : Dev nD) (t : Fin cfg1.N) :
    iprop((dat1 V c).Φ t.castSucc ∗ (dat1 V c).owesAt () t.castSucc
      ∗ (∃ d, Region1.own c (win1_0.stage (cfg1.slots t 0)) ((dat1 V c).before 0 t d))
      ∗ (∃ d, Region1.own c (win1_1.stage (cfg1.slots t 1)) ((dat1 V c).before 1 t d))
      ∗ (∃ d, Region1.own c (win1_2.stage (cfg1.slots t 2)) ((dat1 V c).before 2 t d))
      ∗ (∃ d, Region1.own c (win1_3.stage (cfg1.slots t 3)) ((dat1 V c).before 3 t d))
      ∗ (∃ d, Region1.own c (win1_4.stage (cfg1.slots t 4)) ((dat1 V c).before 4 t d))
      ∗ (∃ d, Region1.own c (win1_5.stage (cfg1.slots t 5)) ((dat1 V c).before 5 t d)))
    ⊢ wp frame (wpE (defs₀ (F := F)) Variants.none c none) Set.univ (bodyAt1 t) (fun _ =>
      iprop(iprop(iprop(Region1.own c Region1.scM (outsAt1 V c t.val t.isLt).2 ∗ Region1.others (F := F) c) ∗ (∃ r, prngReg c r)) ∗ (dat1 V c).owesAt () t.castSucc
        ∗ Region1.own c (win1_0.stage (cfg1.slots t 0)) (iblk1 V c 0 t) ∗ Region1.own c (win1_1.stage (cfg1.slots t 1)) (iblk1 V c 1 t) ∗ Region1.own c (win1_2.stage (cfg1.slots t 2)) (iblk1 V c 2 t)
        ∗ Region1.own c (win1_3.stage (cfg1.slots t 3)) (iblk1 V c 3 t) ∗ Region1.own c (win1_4.stage (cfg1.slots t 4)) (iblk1 V c 4 t) ∗ (dat1 V c).leavesExact 5 t)) := by
  unfold bodyAt1
  simp only [show ∀ d, (dat1 V c).before 0 t d = iblk1 V c 0 t from (dat1 V c).before_in_eq_fetched 0 rfl (fun _ => rfl) (fun _ _ _ => rfl) (fun _ => rfl) t,
    show ∀ d, (dat1 V c).before 1 t d = iblk1 V c 1 t from (dat1 V c).before_in_eq_fetched 1 rfl (fun _ => rfl) (fun _ _ _ => rfl) (fun _ => rfl) t,
    show ∀ d, (dat1 V c).before 2 t d = iblk1 V c 2 t from (dat1 V c).before_in_eq_fetched 2 rfl (fun _ => rfl) (fun _ _ _ => rfl) (fun _ => rfl) t,
    show ∀ d, (dat1 V c).before 3 t d = iblk1 V c 3 t from (dat1 V c).before_in_eq_fetched 3 rfl (fun _ => rfl) (fun _ _ _ => rfl) (fun _ => rfl) t,
    show ∀ d, (dat1 V c).before 4 t d = iblk1 V c 4 t from (dat1 V c).before_in_eq_fetched 4 rfl (fun _ => rfl) (fun _ _ _ => rfl) (fun _ => rfl) t]
  by_cases h1 : t.val % 4 = 3
  · have h0 : ¬t.val % 4 = 0 := by omega
    have hz : t.val ≠ 0 := by omega
    rw [show (dat1 V c).leavesExact 5 t = Region1.own c (win1_5.stage (cfg1.slots t 5)) ((dat1 V c).after 5 t) from by
      unfold Dat.leavesExact; rw [Region1.liveAt_5 t h1], after1_5, outsAt1_out_last V c t h1, outsAt1_acc_next V c t h0]
    rw [Region1.Phi_pos V c t hz]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply (Region1.run c (grid1.coords t) _ _ _ _ _ _ _ _ _ _ _ _ _ _ _ _ _ _ _ _ _ _ _ (.inr (.inr ⟨mt (Region1.hcondFirst t).mp h0, (Region1.hcondLast t).mpr h1, rfl, rfl⟩)) Set.univ _)
    iframe H0 H1 H2 H3 H4 H5 HS0
    iintro ⟨H0, H1, H2, H3, H4, H5, HS0⟩
    iframe
  · rw [Dat.leavesExact_idle (dat1 V c) 5 t (Region1.idleAt_5 t h1).1 (Region1.idleAt_5 t h1).2]
    by_cases h0 : t.val % 4 = 0
    · rw [outsAt1_acc_first V c t h0]
      refine (sep_mono_left (Region1.Phi_out V c t.castSucc)).trans ?_
      rw [Region1.PhiA_eq]
      iintro ⟨⟨⟨⟨%ds, HS0⟩, HR⟩, Hg⟩, Ho, ⟨%d0, H0⟩, ⟨%d1, H1⟩, ⟨%d2, H2⟩, ⟨%d3, H3⟩, ⟨%d4, H4⟩, ⟨%d5, H5⟩⟩
      iapply (Region1.run c (grid1.coords t) _ _ _ _ _ _ _ _ _ _ _ _ _ _ _ _ _ _ _ _ _ _ _ (.inl ⟨(Region1.hcondFirst t).mpr h0, mt (Region1.hcondLast t).mp h1, rfl, rfl⟩) Set.univ _)
      iframe H0 H1 H2 H3 H4 H5 HS0
      iintro ⟨H0, H1, H2, H3, H4, H5, HS0⟩
      iframe HR Hg Ho H0 H1 H2 H3 H4 HS0
      iexists _; iexact H5
    · have hz : t.val ≠ 0 := fun h => h0 (by rw [h])
      rw [outsAt1_acc_next V c t h0, Region1.Phi_pos V c t hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply (Region1.run c (grid1.coords t) _ _ _ _ _ _ _ _ _ _ _ _ _ _ _ _ _ _ _ _ _ _ _ (.inr (.inl ⟨mt (Region1.hcondFirst t).mp h0, mt (Region1.hcondLast t).mp h1, rfl, rfl⟩)) Set.univ _)
      iframe H0 H1 H2 H3 H4 H5 HS0
      iintro ⟨H0, H1, H2, H3, H4, H5, HS0⟩
      iframe HR Hg Ho H0 H1 H2 H3 H4 HS0
      iexists _; iexact H5

theorem body_obligation1 (c : Dev nD) : BodyObligation (dat1 (F := F) V c) (defs₀ (F := F)) Variants.none () Set.univ := fun t => by
  rw [bigSep_W1, bigSep_W1]
  exact Region1.sound_body V c t

end Cert.Kernel.Hand

end
-- ==== Proof.KRegion2.lean ====
import proofs.«159937_j69277822484503_1_alg».proof.Proof.Gen.Kernel.Launch
import proofs.«159937_j69277822484503_1_alg».proof.Proof.Gen.Kernel.Skeleton
import proofs.«159937_j69277822484503_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev Region2.condFirst (i : grid2.Coords) : Prop := (Scalar.cmpi .ne (Scalar.extui (Scalar.cmpi .eq (BitVec.ofNat 32 (i 1).val) 0#32)) 0#32) = 1#1
theorem Region2.hcondFirst : ∀ t : Fin cfg2.N, Region2.condFirst (grid2.coords t) ↔ t.val % 4 = 0 := by decide +kernel

abbrev Region2.condLast (i : grid2.Coords) : Prop := k2_cond2 i = 1#1
theorem Region2.hcondLast : ∀ t : Fin cfg2.N, Region2.condLast (grid2.coords t) ↔ t.val % 4 = 3 := by decide +kernel

theorem Region2.idleAt_5 : ∀ t : Fin cfg2.N, t.val % 4 ≠ 3 → cfg2.idle 5 (grid2.coords t) = true ∧ (cfg2.win 5).flush t = false := by decide +kernel
theorem Region2.liveAt_5 : ∀ t : Fin cfg2.N, t.val % 4 = 3 → cfg2.idle 5 (grid2.coords t) = false := by decide +kernel

abbrev Region2.scM : Memref sig .tc .vmem S2048x64 .f32 := Memref.whole cc2_scratch0

abbrev Region2.own (c : Dev nD) {S : Shape} {e : EltTy} (m : Memref sig .tc .vmem S e) (x : Vec F S e) : sProp 𝕄 :=
  owns (c : Thread nD τ) m fullShare x

abbrev Region2.others (c : Dev nD) : sProp 𝕄 :=
  Pipeline.scopedRestBut spec2 c [cc2_scratch0]

theorem Region2.PhiA_eq (c : Dev nD) :
    (Pipeline.ΦA spec2 c : sProp 𝕄)
      = iprop(iprop((∃ d, Region2.own c Region2.scM d) ∗ Region2.others (F := F) c) ∗ (∃ r, prngReg c r)) := by
  unfold Pipeline.ΦA
  rw [Pipeline.scopedRest_split_of_list spec2 c [cc2_scratch0] (by decide) (by decide)]
  simp only [Region2.own, Region2.scM, owns_whole]; try rfl

section
variable (c : Dev nD) (i : grid2.Coords)
  (arg2 : Memref sig .tc .vmem S2048x2048 .bf16) (harg2 : arg2.IsWhole) (arg3 : Memref sig .tc .vmem S2048x64 .bf16) (harg3 : arg3.IsWhole) (arg4 : Memref sig .tc .vmem S2048x64 .f32) (harg4 : arg4.IsWhole)
  (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (arg8 : Memref sig .tc .vmem S2048x64 .f32) (harg8 : arg8.IsWhole)
  (x0 : Vec F S2048x2048 .bf16) (x1 : Vec F S2048x64 .bf16) (x2 : Vec F S2048x64 .f32) (x3 : Vec F S2048x1 .f32) (x4 : Vec F S2048x1 .f32) (xs0 : Vec F S2048x64 .f32)

theorem Region2.zeroOff : (![0, 0] : Fin 2 → Nat) = fun _ => 0 := funext fun a => by fin_cases a <;> rfl

-- One run of the body in each control case (k = 0, k = 1 or 2, k = 3): the sum starts from `s`, the output buffer ends at `y5`.
set_option maxHeartbeats 1000000 in
theorem Region2.run (x5 y5 s : Vec F S2048x64 .f32)
    (h : Region2.condFirst i ∧ ¬Region2.condLast i ∧ s = k2_pay1 ∧ y5 = x5 ∨ ¬Region2.condFirst i ∧ ¬Region2.condLast i ∧ s = xs0 ∧ y5 = x5
      ∨ ¬Region2.condFirst i ∧ Region2.condLast i ∧ s = xs0 ∧ y5 = k2_pay3 x3 (k2_pay2 xs0 x0 x1) x4 x2)
    (E : Set ℕ) (K : PUnit → sProp 𝕄) :
    iprop(Region2.own c arg2 x0 ∗ Region2.own c arg3 x1 ∗ Region2.own c arg4 x2 ∗ Region2.own c arg5 x3 ∗ Region2.own c arg6 x4 ∗ Region2.own c arg7 x5 ∗ Region2.own c arg8 xs0
        ∗ (iprop(Region2.own c arg2 x0 ∗ Region2.own c arg3 x1 ∗ Region2.own c arg4 x2 ∗ Region2.own c arg5 x3 ∗ Region2.own c arg6 x4 ∗ Region2.own c arg7 y5 ∗ Region2.own c arg8 (k2_pay2 s x0 x1)) -∗ K ⟨⟩))
      ⊢ wp frame (wpE (defs₀ (F := F)) Variants.none c none) E (cc2__fused_kernel i arg2 harg2 arg3 harg3 arg4 harg4 arg5 harg5 arg6 harg6 arg7 harg7 arg8 harg8) K := by
  simp only [cc2__fused_kernel_eq_skeleton]; unfold cc2__fused_kernel_skel
  unfold Region2.own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  obtain ⟨hc0, hc1, rfl, rfl⟩ | ⟨hc0, hc1, rfl, rfl⟩ | ⟨hc0, hc1, rfl, rfl⟩ := h
  all_goals
    sl_exec (disch := first | exact hc0 | exact hc1)
    sl_step
    iapply Hk
    isplitl [H0]
    on_goal 2 => isplitl [H1]
    on_goal 3 => isplitl [H2]
    on_goal 4 => isplitl [H3]
    on_goal 5 => isplitl [H4]
    on_goal 6 => isplitl [H5]
    all_goals
      iexists _; isplitr
      swap; · first | iexact H0 | iexact H1 | iexact H2 | iexact H3 | iexact H4 | iexact H5 | iexact HS0
      ipureintro
      first
      | exact (View.read_writes_eq_canon _ _ _ (View.cover_of_tiledL _ (Shape.size _) (by sl_kernel_rfl))).trans (by
          sl_unfold_words
          rw [View.canon_cons_unit_zero Region2.zeroOff]
          simp only [View.readCov_unit_zero (S := S2048x64) _ Region2.zeroOff, View.readAt_eq_ld, harg2.read_unread, harg3.read_unread, harg4.read_unread, harg5.read_unread, harg6.read_unread, harg8.read_unread, View.ld_unit_zero (S := S2048x2048) Region2.zeroOff, View.ld_unit_zero (S := S2048x64) Region2.zeroOff, View.ld_unit_zero (S := S2048x1) Region2.zeroOff])
      | exact Memref.IsWhole.read_unread _ _

end

-- The running sum after point `n`, started again from zero where `n % 4 = 0`.
def Region2.acc (c : Dev nD) : (n : ℕ) → n < cfg2.N → Vec F S2048x64 .f32
  | 0, hn => k2_pay2 (k2_pay1 (F := F)) (iblk2 V c 0 ⟨0, hn⟩) (iblk2 V c 1 ⟨0, hn⟩)
  | n + 1, hn => k2_pay2 (if (n + 1) % 4 = 0 then k2_pay1 (F := F) else Region2.acc c n (Nat.lt_of_succ_lt hn)) (iblk2 V c 0 ⟨n + 1, hn⟩) (iblk2 V c 1 ⟨n + 1, hn⟩)

def outsAt2 (c : Dev nD) : (n : ℕ) → n < cfg2.N → Vec F S2048x64 .f32 × Vec F S2048x64 .f32 :=
  fun n hn => (k2_pay3 (iblk2 V c 3 ⟨n, hn⟩) (Region2.acc V c n hn) (iblk2 V c 4 ⟨n, hn⟩) (iblk2 V c 2 ⟨n, hn⟩), Region2.acc V c n hn)

theorem outsAt2_acc_first (c : Dev nD) (t : Fin cfg2.N) (h : t.val % 4 = 0) :
    (outsAt2 V c t.val t.isLt).2 = k2_pay2 (k2_pay1 (F := F)) (iblk2 V c 0 t) (iblk2 V c 1 t) := by
  obtain ⟨_ | n, hn⟩ := t
  · rfl
  · show k2_pay2 (if (n + 1) % 4 = 0 then _ else _) _ _ = _
    rw [if_pos h]

theorem outsAt2_acc_next (c : Dev nD) (t : Fin cfg2.N) (h : t.val % 4 ≠ 0) :
    (outsAt2 V c t.val t.isLt).2 = k2_pay2 (outsAt2 V c (t.val - 1) (Nat.lt_of_le_of_lt (Nat.sub_le _ _) t.isLt)).2 (iblk2 V c 0 t) (iblk2 V c 1 t) := by
  obtain ⟨_ | n, hn⟩ := t
  · exact absurd (Nat.zero_mod 4) h
  · show k2_pay2 (if (n + 1) % 4 = 0 then _ else _) _ _ = _
    rw [if_neg h]; rfl

theorem outsAt2_out_last (c : Dev nD) (t : Fin cfg2.N) (h : t.val % 4 = 3) :
    (outsAt2 V c t.val t.isLt).1 = k2_pay3 (iblk2 V c 3 t) (outsAt2 V c t.val t.isLt).2 (iblk2 V c 4 t) (iblk2 V c 2 t) := rfl

-- Before point `n` the scratch holds the sum the point before left; before the first point, anything.
def Region2.PhiS (c : Dev nD) : (n : ℕ) → n ≤ cfg2.N → sProp 𝕄
  | 0, _ => Pipeline.ΦA spec2 c
  | n + 1, hn => iprop(iprop(Region2.own c Region2.scM ((outsAt2 V c n hn).2) ∗ Region2.others (F := F) c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := Region2.PhiS V c t.val (Nat.le_of_lt_succ t.isLt)
  q _ := fullShare
  owed _ := 0

theorem A_eq2 (c : Dev nD) (w : Fin cfg2.W) : (dat2 V c).A w = V c (Pipeline.arrRef spec2 w) := rfl

theorem Region2.Phi_pos (c : Dev nD) : ∀ (t : Fin cfg2.N) (hz : t.val ≠ 0), (dat2 V c).Φ t.castSucc
    = iprop(iprop(Region2.own c Region2.scM ((outsAt2 V c (t.val - 1) (Nat.lt_of_le_of_lt (Nat.sub_le _ _) t.isLt)).2) ∗ Region2.others (F := F) c) ∗ (∃ r, prngReg c r))
  | ⟨0, _⟩, hz => absurd rfl hz
  | ⟨n + 1, _⟩, _ => rfl

theorem after2_5 (c : Dev nD) (t : Fin cfg2.N) : (dat2 V c).after 5 t = (outsAt2 V c t.val t.isLt).1 := rfl

theorem hin2 (c : Dev nD) : Pipeline.ΦA spec2 c ⊢ (dat2 V c).Φ 0 :=
  Idealize.SL.BI.Entails.refl _

-- Forgetting what the scratch holds gives the region's own invariant back.
theorem Region2.Phi_out (c : Dev nD) : ∀ t : Fin (cfg2.N + 1), (dat2 V c).Φ t ⊢ Pipeline.ΦA spec2 c
  | ⟨0, _⟩ => by show Pipeline.ΦA spec2 c ⊢ _; rfl
  | ⟨n + 1, h⟩ => by
    rw [Region2.PhiA_eq]; show iprop(iprop(_ ∗ _) ∗ _) ⊢ _
    iintro ⟨⟨HS0, HR⟩, Hg⟩
    iframe HR Hg
    iexists _; iexact HS0

theorem hout2 (c : Dev nD) : (dat2 V c).Φ (Fin.last cfg2.N) ⊢ Pipeline.ΦA spec2 c :=
  Region2.Phi_out V c _

-- The body at any point, by the point's residue mod 4.
theorem Region2.sound_body (c : Dev nD) (t : Fin cfg2.N) :
    iprop((dat2 V c).Φ t.castSucc ∗ (dat2 V c).owesAt () t.castSucc
      ∗ (∃ d, Region2.own c (win2_0.stage (cfg2.slots t 0)) ((dat2 V c).before 0 t d))
      ∗ (∃ d, Region2.own c (win2_1.stage (cfg2.slots t 1)) ((dat2 V c).before 1 t d))
      ∗ (∃ d, Region2.own c (win2_2.stage (cfg2.slots t 2)) ((dat2 V c).before 2 t d))
      ∗ (∃ d, Region2.own c (win2_3.stage (cfg2.slots t 3)) ((dat2 V c).before 3 t d))
      ∗ (∃ d, Region2.own c (win2_4.stage (cfg2.slots t 4)) ((dat2 V c).before 4 t d))
      ∗ (∃ d, Region2.own c (win2_5.stage (cfg2.slots t 5)) ((dat2 V c).before 5 t d)))
    ⊢ wp frame (wpE (defs₀ (F := F)) Variants.none c none) Set.univ (bodyAt2 t) (fun _ =>
      iprop(iprop(iprop(Region2.own c Region2.scM (outsAt2 V c t.val t.isLt).2 ∗ Region2.others (F := F) c) ∗ (∃ r, prngReg c r)) ∗ (dat2 V c).owesAt () t.castSucc
        ∗ Region2.own c (win2_0.stage (cfg2.slots t 0)) (iblk2 V c 0 t) ∗ Region2.own c (win2_1.stage (cfg2.slots t 1)) (iblk2 V c 1 t) ∗ Region2.own c (win2_2.stage (cfg2.slots t 2)) (iblk2 V c 2 t)
        ∗ Region2.own c (win2_3.stage (cfg2.slots t 3)) (iblk2 V c 3 t) ∗ Region2.own c (win2_4.stage (cfg2.slots t 4)) (iblk2 V c 4 t) ∗ (dat2 V c).leavesExact 5 t)) := by
  unfold bodyAt2
  simp only [show ∀ d, (dat2 V c).before 0 t d = iblk2 V c 0 t from (dat2 V c).before_in_eq_fetched 0 rfl (fun _ => rfl) (fun _ _ _ => rfl) (fun _ => rfl) t,
    show ∀ d, (dat2 V c).before 1 t d = iblk2 V c 1 t from (dat2 V c).before_in_eq_fetched 1 rfl (fun _ => rfl) (fun _ _ _ => rfl) (fun _ => rfl) t,
    show ∀ d, (dat2 V c).before 2 t d = iblk2 V c 2 t from (dat2 V c).before_in_eq_fetched 2 rfl (fun _ => rfl) (fun _ _ _ => rfl) (fun _ => rfl) t,
    show ∀ d, (dat2 V c).before 3 t d = iblk2 V c 3 t from (dat2 V c).before_in_eq_fetched 3 rfl (fun _ => rfl) (fun _ _ _ => rfl) (fun _ => rfl) t,
    show ∀ d, (dat2 V c).before 4 t d = iblk2 V c 4 t from (dat2 V c).before_in_eq_fetched 4 rfl (fun _ => rfl) (fun _ _ _ => rfl) (fun _ => rfl) t]
  by_cases h1 : t.val % 4 = 3
  · have h0 : ¬t.val % 4 = 0 := by omega
    have hz : t.val ≠ 0 := by omega
    rw [show (dat2 V c).leavesExact 5 t = Region2.own c (win2_5.stage (cfg2.slots t 5)) ((dat2 V c).after 5 t) from by
      unfold Dat.leavesExact; rw [Region2.liveAt_5 t h1], after2_5, outsAt2_out_last V c t h1, outsAt2_acc_next V c t h0]
    rw [Region2.Phi_pos V c t hz]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply (Region2.run c (grid2.coords t) _ _ _ _ _ _ _ _ _ _ _ _ _ _ _ _ _ _ _ _ _ _ _ (.inr (.inr ⟨mt (Region2.hcondFirst t).mp h0, (Region2.hcondLast t).mpr h1, rfl, rfl⟩)) Set.univ _)
    iframe H0 H1 H2 H3 H4 H5 HS0
    iintro ⟨H0, H1, H2, H3, H4, H5, HS0⟩
    iframe
  · rw [Dat.leavesExact_idle (dat2 V c) 5 t (Region2.idleAt_5 t h1).1 (Region2.idleAt_5 t h1).2]
    by_cases h0 : t.val % 4 = 0
    · rw [outsAt2_acc_first V c t h0]
      refine (sep_mono_left (Region2.Phi_out V c t.castSucc)).trans ?_
      rw [Region2.PhiA_eq]
      iintro ⟨⟨⟨⟨%ds, HS0⟩, HR⟩, Hg⟩, Ho, ⟨%d0, H0⟩, ⟨%d1, H1⟩, ⟨%d2, H2⟩, ⟨%d3, H3⟩, ⟨%d4, H4⟩, ⟨%d5, H5⟩⟩
      iapply (Region2.run c (grid2.coords t) _ _ _ _ _ _ _ _ _ _ _ _ _ _ _ _ _ _ _ _ _ _ _ (.inl ⟨(Region2.hcondFirst t).mpr h0, mt (Region2.hcondLast t).mp h1, rfl, rfl⟩) Set.univ _)
      iframe H0 H1 H2 H3 H4 H5 HS0
      iintro ⟨H0, H1, H2, H3, H4, H5, HS0⟩
      iframe HR Hg Ho H0 H1 H2 H3 H4 HS0
      iexists _; iexact H5
    · have hz : t.val ≠ 0 := fun h => h0 (by rw [h])
      rw [outsAt2_acc_next V c t h0, Region2.Phi_pos V c t hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply (Region2.run c (grid2.coords t) _ _ _ _ _ _ _ _ _ _ _ _ _ _ _ _ _ _ _ _ _ _ _ (.inr (.inl ⟨mt (Region2.hcondFirst t).mp h0, mt (Region2.hcondLast t).mp h1, rfl, rfl⟩)) Set.univ _)
      iframe H0 H1 H2 H3 H4 H5 HS0
      iintro ⟨H0, H1, H2, H3, H4, H5, HS0⟩
      iframe HR Hg Ho H0 H1 H2 H3 H4 HS0
      iexists _; iexact H5

theorem body_obligation2 (c : Dev nD) : BodyObligation (dat2 (F := F) V c) (defs₀ (F := F)) Variants.none () Set.univ := fun t => by
  rw [bigSep_W2, bigSep_W2]
  exact Region2.sound_body V c t

end Cert.Kernel.Hand

end
-- ==== Proof.KRun.lean ====
import proofs.«159937_j69277822484503_1_alg».proof.Proof.KRegion0
import proofs.«159937_j69277822484503_1_alg».proof.Proof.KRegion1
import proofs.«159937_j69277822484503_1_alg».proof.Proof.KRegion2
import proofs.«159937_j69277822484503_1_alg».proof.Proof.Gen.Kernel.Regions
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N :=
  Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) :=
  Pipeline.withArrays_of_ne spec0 c _ _ b hb

abbrev W2 : Dev nD → Valuation τ sig (Elt F) := fun c => StableHlo.after hostOps1 (W1 m c)
abbrev V2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb

abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev V6 : (c : Dev nD) → (b : Ref sig .tc) → Buf (Elt F) ((c : Thread nD τ).loc b) := fun c b => W6 m c b

def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N :=
  Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) :=
  Pipeline.withArrays_of_ne spec2 c _ _ b hb

abbrev W8 : Dev nD → Valuation τ sig (Elt F) := fun c => StableHlo.after hostOps3 (W7 m c)
abbrev W9 : Dev nD → Valuation τ sig (Elt F) := fun c => StableHlo.after hostOps3_1 (W8 m c)

def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V6 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region takes the contents `Wi` to `Wo`, which differ only at the region's arrays.
def reg (p : Fin 3) (lf : Pipeline.LaunchFacts (nD := nD) (τ := τ) cfgs p) (Wi Wo : Dev nD → Valuation τ sig (Elt F))
    (hb : ∀ c, BodyObligation (pdats m p c) (defs₀ (F := F)) 𝒱₀ () Set.univ)
    (hi : ∀ c, (Pipeline.ΦA (cfgs p).spec c : sProp 𝕄) ⊢ (pdats m p c).Φ 0)
    (ho : ∀ c, (pdats m p c).Φ (Fin.last _) ⊢ (Pipeline.ΦA (cfgs p).spec c : sProp 𝕄))
    (hq : ∀ c w, (pdats m p c).q w = fullShare) (hz : ∀ c t, (pdats m p c).owed t = 0)
    (hr : ∀ c t, (pdats m p c).recorded t = Set.univ)
    (hA : ∀ c w, (pdats m p c).A w = Wi c (Proc.devRef .tc (Pipeline.arrRef (cfgs p).spec w)))
    (hF : ∀ c w, Wo c (Proc.devRef .tc (Pipeline.arrRef (cfgs p).spec w)) = (pdats m p c).arrAt w (cfgs p).N)
    (hR : ∀ c (b : Ref sig .tc), (∀ w, Pipeline.arrRef (cfgs p).spec w ≠ b) → Wo c (Proc.devRef .tc b) = Wi c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c fun b => Wi c b
  hentry c := by
    unfold Pipeline.Dat.owesAt Pipeline.owesWithin Pipeline.Dat.bound
    rw [Pipeline.ownSems0_none, hz c, hr c]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp] <;> iassumption
  hin c := .trans (by unfold Pipeline.ΦA; iintro ⟨Hp, -, Hr⟩; isplitl [Hr] <;> iassumption) (hi c)
  hout c := (ho c).trans (by
    rw [Pipeline.ownSems0_none]; unfold Pipeline.ΦA
    iintro ⟨Hr, Hp⟩
    isplitl [Hp]; · iexact Hp
    isplitr; · iempintro
    iexact Hr)
  hexit c := by
    unfold Pipeline.Dat.owesAt Pipeline.owesWithin
    rw [hz c]
    have hjoin := Pipeline.unscopedBufs_of_arrays (p := p) (pcfgs (F := F)) adm lf.win lf.arr_whole c (pdats m) ((pdats m p c).share_full (hq c))
      (fun b => Wi c b) (fun b => Wo c b) ((pdats m p c).arrAt · (cfgs p).N) (fun w => (hF c w).symm)
      fun b hb => hR c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m) () defs₀ 𝒱₀ L lv) :=
  [ .region (reg m 0 launch0 (W0 m) (W1 m) (body_obligation0 (V0 m)) (hin0 (V0 m)) (hout0 (V0 m))
      (fun _ _ => rfl) (fun _ _ => rfl) (fun _ _ => rfl) (fun _ _ => rfl) (W1_arr m) (W1_of_ne m)),
    .host (hseg hostOps1 hostOps1_sub hostOps1_fresh (W1 m)),
    .region (reg m 1 launch1 (W2 m) (W3 m) (body_obligation1 (V2 m)) (hin1 (V2 m)) (hout1 (V2 m))
      (fun _ _ => rfl) (fun _ _ => rfl) (fun _ _ => rfl) (fun _ _ => rfl) (W3_arr m) (W3_of_ne m)),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .region (reg m 2 launch2 (W6 m) (W7 m) (body_obligation2 (V6 m)) (hin2 (V6 m)) (hout2 (V6 m))
      (fun _ _ => rfl) (fun _ _ => rfl) (fun _ _ => rfl) (fun _ _ => rfl) (W7_arr m) (W7_of_ne m)),
    .host (hseg hostOps3 hostOps3_sub hostOps3_fresh (W7 m)),
    .host (hseg hostOps3_1 hostOps3_1_sub hostOps3_1_fresh (W8 m)) ]
theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m c) ∗ R c)) (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

end Cert.Kernel.Hand

end
-- ==== Proof.KRunArgs.lean ====
import proofs.«159937_j69277822484503_1_alg».proof.Proof.KRun

set_option maxRecDepth 16384

noncomputable section

namespace Cert.Kernel.Hand

open Idealize.ShloMosaic Idealize.ShloMosaic.TcCoe Idealize.SL Idealize.SL.Sem
open Cert.Kernel Cert.Kernel.Gen

variable {F : FTy → Type} [FloatOps F]

variable (m : (ℓ : Loc nD τ sig) → Buf (Elt F) ℓ) (ρ : Dev nD → PrngReg)

-- No host stretch writes `b`, and `b` is no array of regions 1 and 2.
abbrev Kept (b : Ref sig .tc) : Prop :=
  b ∉ hostOps3_1_W ∧ b ∉ hostOps3_W ∧ (∀ w, Pipeline.arrRef spec2 w ≠ b) ∧ b ∉ hostOps2_2_W ∧ b ∉ hostOps2_1_W ∧ b ∉ hostOps2_W
    ∧ (∀ w, Pipeline.arrRef spec1 w ≠ b) ∧ b ∉ hostOps1_W

theorem W9_of (c : Dev nD) (b : Ref sig .tc) : Kept b → W9 m c b = W1 m c b
  | ⟨h9, h8, h7, h6, h5, h4, h3, h2⟩ =>
    (StableHlo.after_of_writes_sub _ _ hostOps3_1_writes h9).trans <| (StableHlo.after_of_writes_sub _ _ hostOps3_writes h8).trans <|
    (W7_of_ne m c b h7).trans <| (StableHlo.after_of_writes_sub _ _ hostOps2_2_writes h6).trans <|
    (StableHlo.after_of_writes_sub _ _ hostOps2_1_writes h5).trans <| (StableHlo.after_of_writes_sub _ _ hostOps2_writes h4).trans <|
    (W3_of_ne m c b h3).trans <| StableHlo.after_of_writes_sub _ _ hostOps1_writes h2

theorem W9_arg (c : Dev nD) (b : Ref sig .tc) (h : Kept b ∧ ∀ w, Pipeline.arrRef spec0 w ≠ b) :
    W9 m c b = m ((c.tc : Thread nD τ).loc b) :=
  (W9_of m c b h.1).trans (W1_of_ne m c b h.2)

theorem W9_main_arg0 (c : Dev nD) : W9 m c main_arg0 = m ((c.tc : Thread nD τ).loc main_arg0) := W9_arg m c _ (by decide)
-- Region 0 only reads this array.
theorem W9_main_arg1 (c : Dev nD) : W9 m c main_arg1 = m ((c.tc : Thread nD τ).loc main_arg1) :=
  (W9_of m c _ (by decide)).trans ((W1_arr m c 0).trans (((dat0 (V0 m) c).arrAt_in 0 rfl _).trans (A_eq0 (V0 m) c 0)))
theorem W9_main_arg2 (c : Dev nD) : W9 m c main_arg2 = m ((c.tc : Thread nD τ).loc main_arg2) := W9_arg m c _ (by decide)
theorem W9_main_arg3 (c : Dev nD) : W9 m c main_arg3 = m ((c.tc : Thread nD τ).loc main_arg3) := W9_arg m c _ (by decide)
theorem W9_main_arg4 (c : Dev nD) : W9 m c main_arg4 = m ((c.tc : Thread nD τ).loc main_arg4) := W9_arg m c _ (by decide)
theorem W9_main_arg5 (c : Dev nD) : W9 m c main_arg5 = m ((c.tc : Thread nD τ).loc main_arg5) := W9_arg m c _ (by decide)
theorem W9_main_arg6 (c : Dev nD) : W9 m c main_arg6 = m ((c.tc : Thread nD τ).loc main_arg6) := W9_arg m c _ (by decide)
theorem W9_main_arg7 (c : Dev nD) : W9 m c main_arg7 = m ((c.tc : Thread nD τ).loc main_arg7) := W9_arg m c _ (by decide)
theorem W9_main_arg8 (c : Dev nD) : W9 m c main_arg8 = m ((c.tc : Thread nD τ).loc main_arg8) := W9_arg m c _ (by decide)
theorem W9_main_arg9 (c : Dev nD) : W9 m c main_arg9 = m ((c.tc : Thread nD τ).loc main_arg9) := W9_arg m c _ (by decide)
theorem W9_main_arg10 (c : Dev nD) : W9 m c main_arg10 = m ((c.tc : Thread nD τ).loc main_arg10) := W9_arg m c _ (by decide)
theorem W9_main_arg11 (c : Dev nD) : W9 m c main_arg11 = m ((c.tc : Thread nD τ).loc main_arg11) := W9_arg m c _ (by decide)
theorem W9_main_arg12 (c : Dev nD) : W9 m c main_arg12 = m ((c.tc : Thread nD τ).loc main_arg12) := W9_arg m c _ (by decide)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have g {b : Ref sig .tc} {x} (hb : ¬ (Proc.devRef .tc b : DevRef τ sig).isScoped) (e : W9 m c b = x) :
        r.2.mem ((c.tc : Thread nD τ).loc b) = x := (h c _ (mem_uc b hb)).trans e
    ⟨g (by decide) (W9_main_arg0 m c),
     g (by decide) (W9_main_arg1 m c),
     g (by decide) (W9_main_arg2 m c),
     g (by decide) (W9_main_arg3 m c),
     g (by decide) (W9_main_arg4 m c),
     g (by decide) (W9_main_arg5 m c),
     g (by decide) (W9_main_arg6 m c),
     g (by decide) (W9_main_arg7 m c),
     g (by decide) (W9_main_arg8 m c),
     g (by decide) (W9_main_arg9 m c),
     g (by decide) (W9_main_arg10 m c),
     g (by decide) (W9_main_arg11 m c),
     g (by decide) (W9_main_arg12 m c)⟩) (run_all m ρ)

end Cert.Kernel.Hand

end
-- ==== Proof.Region0.lean ====
import proofs.«159937_j69277822484503_1_alg».proof.Proof.Gen.KernelIdeal.Launch
import proofs.«159937_j69277822484503_1_alg».proof.Proof.Gen.KernelIdeal.Skeleton
import proofs.«159937_j69277822484503_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 := by decide +kernel

abbrev cond0_1 (i : grid0.Coords) : Prop := k0_cond2 i = 1#1
theorem hcond0_1 : ∀ t : Fin cfg0.N, cond0_1 (grid0.coords t) ↔ t.val % 4 = 3 := by decide +kernel

theorem liveAt0 : ∀ t : Fin cfg0.N, cfg0.idle 0 (grid0.coords t) = false ∧ cfg0.idle 1 (grid0.coords t) = false ∧ (t.val % 4 = 3 → cfg0.idle 2 (grid0.coords t) = false) := by decide +kernel
theorem idleAt0_2 : ∀ t : Fin cfg0.N, t.val % 4 ≠ 3 → cfg0.idle 2 (grid0.coords t) = true ∧ (cfg0.win 2).flush t = false := by decide +kernel

abbrev ms0_0 (t : Fin cfg0.N) : Memref sig .tc .vmem S1024x2048 .f32 := win0_0.stage (cfg0.slots t 0)
abbrev ms0_1 (t : Fin cfg0.N) : Memref sig .tc .vmem S1024x2048 .bf16 := win0_1.stage (cfg0.slots t 1)
abbrev ms0_2 (t : Fin cfg0.N) : Memref sig .tc .vmem S1024x1 .f32 := win0_2.stage (cfg0.slots t 2)
abbrev scM0_0 : Memref sig .tc .vmem S1024x1 .f32 := Memref.whole cc0_scratch0

abbrev own0 (c : Dev nD) {S : Shape} {e : EltTy} (m : Memref sig .tc .vmem S e) (x : Vec F S e) : sProp 𝕄 :=
  owns (c : Thread nD τ) m fullShare x

abbrev rest0 (c : Dev nD) : sProp 𝕄 :=
  Pipeline.scopedRestBut spec0 c [cc0_scratch0]

theorem PhiA0_eq (c : Dev nD) :
    (Pipeline.ΦA spec0 c : sProp 𝕄)
      = iprop(iprop((∃ d, own0 c scM0_0 d) ∗ rest0 c) ∗ (∃ r, prngReg c r)) := by
  unfold Pipeline.ΦA; rw [scopedRest0_split]; simp only [own0, scM0_0, owns_whole]; try rfl

section
variable (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole) (x0 : Vec F S1024x2048 .f32) (xs0 : Vec F S1024x1 .f32)

private theorem zero_off0 : (![0, 0] : Fin 2 → Nat) = fun _ => 0 := funext fun a => by fin_cases a <;> rfl

-- One run of the body in each control case (k = 0, k = 1 or 2, k = 3): the row sum starts from `s`, the third buffer ends at `y4`.
theorem run0 (x4 y4 s : Vec F S1024x1 .f32)
    (h : cond0_0 i ∧ ¬cond0_1 i ∧ s = k0_pay1 ∧ y4 = x4 ∨ ¬cond0_0 i ∧ ¬cond0_1 i ∧ s = xs0 ∧ y4 = x4 ∨ ¬cond0_0 i ∧ cond0_1 i ∧ s = xs0 ∧ y4 = k0_pay3 x0 xs0)
    (E : Set ℕ) (K : PUnit → sProp 𝕄) :
    iprop(own0 c arg2 x0 ∗ (∃ d, own0 c arg3 d) ∗ own0 c arg4 x4 ∗ own0 c arg5 xs0
        ∗ (iprop(own0 c arg2 x0 ∗ own0 c arg3 (k0_pay2 x0) ∗ own0 c arg4 y4 ∗ own0 c arg5 (k0_pay3 x0 s)) -∗ K ⟨⟩))
      ⊢ wp frame (wpE (defs₀ (F := F)) Variants.none c none) E (cc0__cast_rowsum_kernel i arg2 harg2 arg3 harg3 arg4 harg4 arg5 harg5) K := by
  simp only [cc0__cast_rowsum_kernel_eq_skeleton]; unfold cc0__cast_rowsum_kernel_skel
  unfold own0 owns
  iintro ⟨⟨%f0, %hf0, H0⟩, ⟨%d1, %f1, -, H1⟩, ⟨%f2, %hf2, H2⟩, ⟨%fs0, %hfs0, HS0⟩, Hk⟩
  obtain rfl := harg2.eq_unread hf0; obtain rfl := harg4.eq_unread hf2; obtain rfl := harg5.eq_unread hfs0
  obtain ⟨hc0, hc1, rfl, rfl⟩ | ⟨hc0, hc1, rfl, rfl⟩ | ⟨hc0, hc1, rfl, rfl⟩ := h
  all_goals
    sl_exec (disch := first | exact hc0 | exact hc1)
    sl_step
    iapply Hk
    isplitl [H0]
    on_goal 2 => isplitl [H1]
    on_goal 3 => isplitl [H2]
    all_goals
      iexists _; isplitr
      swap; · first | iexact H0 | iexact H1 | iexact H2 | iexact HS0
      ipureintro
      first
      | exact (View.read_writes_eq_canon _ _ _ (View.cover_of_tiledL _ (Shape.size _) (by sl_kernel_rfl))).trans (by
          sl_unfold_words
          rw [View.canon_cons_unit_zero zero_off0]
          simp only [View.readCov_unit_zero (S := S1024x1) _ zero_off0, View.readAt_eq_ld, harg2.read_unread, harg5.read_unread, View.ld_unit_zero (S := S1024x2048) zero_off0, View.ld_unit_zero (S := S1024x1) zero_off0])
      | exact harg2.read_unread _
      | exact harg4.read_unread _

end

-- The running row sum after point `n`, started again from zero where `n % 4 = 0`.
def acc0 (c : Dev nD) : (n : ℕ) → n < cfg0.N → Vec F S1024x1 .f32
  | 0, hn => k0_pay3 (iblk0 V c 0 ⟨0, hn⟩) (k0_pay1 (F := F))
  | n + 1, hn => k0_pay3 (iblk0 V c 0 ⟨n + 1, hn⟩) (if (n + 1) % 4 = 0 then k0_pay1 (F := F) else acc0 c n (Nat.lt_of_succ_lt hn))

def outsAt0 (c : Dev nD) : (n : ℕ) → n < cfg0.N → Vec F S1024x2048 .bf16 × Vec F S1024x1 .f32 × Vec F S1024x1 .f32 :=
  fun n hn => (k0_pay2 (iblk0 V c 0 ⟨n, hn⟩), acc0 V c n hn, acc0 V c n hn)

theorem outsAt0_bf (c : Dev nD) (t : Fin cfg0.N) : (outsAt0 V c t.val t.isLt).1 = k0_pay2 (iblk0 V c 0 t) := rfl

theorem outsAt0_acc_first (c : Dev nD) (t : Fin cfg0.N) (h : t.val % 4 = 0) :
    (outsAt0 V c t.val t.isLt).2.2 = k0_pay3 (iblk0 V c 0 t) (k0_pay1 (F := F)) := by
  obtain ⟨_ | n, hn⟩ := t
  · rfl
  · show k0_pay3 _ (if (n + 1) % 4 = 0 then _ else _) = _
    rw [if_pos h]

theorem outsAt0_acc_next (c : Dev nD) (t : Fin cfg0.N) (h : t.val % 4 ≠ 0) :
    (outsAt0 V c t.val t.isLt).2.2 = k0_pay3 (iblk0 V c 0 t) (outsAt0 V c (t.val - 1) (Nat.lt_of_le_of_lt (Nat.sub_le _ _) t.isLt)).2.2 := by
  obtain ⟨_ | n, hn⟩ := t
  · exact absurd (Nat.zero_mod 4) h
  · show k0_pay3 _ (if (n + 1) % 4 = 0 then _ else _) = _
    rw [if_neg h]; rfl

theorem outsAt0_out_last (c : Dev nD) (t : Fin cfg0.N) (h : t.val % 4 = 3) :
    (outsAt0 V c t.val t.isLt).2.1 = (outsAt0 V c t.val t.isLt).2.2 := rfl

-- Before point `n` the scratch column holds the sum the point before left; before the first point, anything.
def PhiS0 (c : Dev nD) : (n : ℕ) → n ≤ cfg0.N → sProp 𝕄
  | 0, _ => Pipeline.ΦA spec0 c
  | n + 1, hn => iprop(iprop(own0 c scM0_0 ((outsAt0 V c n hn).2.2) ∗ rest0 c) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem Phi0_pos (c : Dev nD) : ∀ (t : Fin cfg0.N) (hz : t.val ≠ 0), (dat0 V c).Φ t.castSucc
    = iprop(iprop(own0 c scM0_0 ((outsAt0 V c (t.val - 1) (Nat.lt_of_le_of_lt (Nat.sub_le _ _) t.isLt)).2.2) ∗ rest0 c) ∗ (∃ r, prngReg c r))
  | ⟨0, _⟩, hz => absurd rfl hz
  | ⟨n + 1, _⟩, _ => rfl

theorem after0_0 (c : Dev nD) (t : Fin cfg0.N) : (dat0 V c).after 0 t = iblk0 V c 0 t := rfl
theorem after0_1 (c : Dev nD) (t : Fin cfg0.N) : (dat0 V c).after 1 t = (outsAt0 V c t.val t.isLt).1 := rfl
theorem after0_2 (c : Dev nD) (t : Fin cfg0.N) : (dat0 V c).after 2 t = (outsAt0 V c t.val t.isLt).2.1 := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d

theorem hin0 (c : Dev nD) : Pipeline.ΦA spec0 c ⊢ (dat0 V c).Φ 0 := by
  rw [show (dat0 V c).Φ 0 = Pipeline.ΦA spec0 c from rfl]

-- Forgetting what the scratch column holds gives the region's own invariant back.
theorem Phi_out0 (c : Dev nD) : ∀ t : Fin (cfg0.N + 1), (dat0 V c).Φ t ⊢ Pipeline.ΦA spec0 c
  | ⟨0, _⟩ => by show Pipeline.ΦA spec0 c ⊢ _; rfl
  | ⟨n + 1, h⟩ => by
    rw [PhiA0_eq]; show iprop(iprop(_ ∗ _) ∗ _) ⊢ _
    iintro ⟨⟨HS0, Hr⟩, Hg⟩
    iframe Hr Hg
    iexists _; iexact HS0

theorem hout0 (c : Dev nD) : (dat0 V c).Φ (Fin.last cfg0.N) ⊢ Pipeline.ΦA spec0 c :=
  Phi_out0 V c _

-- The body at any point, by the point's residue mod 4.
theorem sound_body0 (c : Dev nD) (t : Fin cfg0.N) :
    iprop((dat0 V c).Φ t.castSucc ∗ (dat0 V c).owesAt () t.castSucc
      ∗ (∃ d, own0 c (ms0_0 t) ((dat0 V c).before 0 t d))
      ∗ (∃ d, own0 c (ms0_1 t) ((dat0 V c).before 1 t d))
      ∗ (∃ d, own0 c (ms0_2 t) ((dat0 V c).before 2 t d)))
    ⊢ wp frame (wpE (defs₀ (F := F)) Variants.none c none) Set.univ (bodyAt0 t) (fun _ =>
      iprop(iprop(iprop(own0 c scM0_0 (outsAt0 V c t.val t.isLt).2.2 ∗ rest0 c) ∗ (∃ r, prngReg c r)) ∗ (dat0 V c).owesAt () t.castSucc
        ∗ own0 c (ms0_0 t) (iblk0 V c 0 t) ∗ own0 c (ms0_1 t) (k0_pay2 (iblk0 V c 0 t)) ∗ (dat0 V c).leavesExact 2 t)) := by
  unfold bodyAt0
  simp only [before0_0]
  by_cases h1 : t.val % 4 = 3
  · have h0 : ¬t.val % 4 = 0 := by omega
    have hz : t.val ≠ 0 := by omega
    rw [show (dat0 V c).leavesExact 2 t = own0 c (ms0_2 t) ((dat0 V c).after 2 t) from by
      unfold Dat.leavesExact; rw [(liveAt0 t).2.2 h1], after0_2, outsAt0_out_last V c t h1, outsAt0_acc_next V c t h0]
    rw [Phi0_pos V c t hz]
    iintro ⟨⟨⟨HS0, Hr⟩, Hg⟩, Ho, ⟨%d0, H0⟩, ⟨%d1, H1⟩, ⟨%d2, H2⟩⟩
    iapply (run0 c (grid0.coords t) _ _ _ _ _ _ _ _ (iblk0 V c 0 t) _ _ _ _ (.inr (.inr ⟨mt (hcond0_0 t).mp h0, (hcond0_1 t).mpr h1, rfl, rfl⟩)) Set.univ _)
    iframe H0 H2 HS0
    isplitl [H1]; · iexists _; iexact H1
    iintro ⟨H0, H1, H2, HS0⟩
    iframe
  · rw [Dat.leavesExact_idle (dat0 V c) 2 t (idleAt0_2 t h1).1 (idleAt0_2 t h1).2]
    by_cases h0 : t.val % 4 = 0
    · rw [outsAt0_acc_first V c t h0]
      refine (sep_mono_left (Phi_out0 V c t.castSucc)).trans ?_
      rw [PhiA0_eq]
      iintro ⟨⟨⟨⟨%ds, HS0⟩, Hr⟩, Hg⟩, Ho, ⟨%d0, H0⟩, ⟨%d1, H1⟩, ⟨%d2, H2⟩⟩
      iapply (run0 c (grid0.coords t) _ _ _ _ _ _ _ _ (iblk0 V c 0 t) _ _ _ _ (.inl ⟨(hcond0_0 t).mpr h0, mt (hcond0_1 t).mp h1, rfl, rfl⟩) Set.univ _)
      iframe H0 H2 HS0
      isplitl [H1]; · iexists _; iexact H1
      iintro ⟨H0, H1, H2, HS0⟩
      iframe Hr Hg Ho H0 H1 HS0
      iexists _; iexact H2
    · have hz : t.val ≠ 0 := fun h => h0 (by rw [h])
      rw [outsAt0_acc_next V c t h0, Phi0_pos V c t hz]
      iintro ⟨⟨⟨HS0, Hr⟩, Hg⟩, Ho, ⟨%d0, H0⟩, ⟨%d1, H1⟩, ⟨%d2, H2⟩⟩
      iapply (run0 c (grid0.coords t) _ _ _ _ _ _ _ _ (iblk0 V c 0 t) _ _ _ _ (.inr (.inl ⟨mt (hcond0_0 t).mp h0, mt (hcond0_1 t).mp h1, rfl, rfl⟩)) Set.univ _)
      iframe H0 H2 HS0
      isplitl [H1]; · iexists _; iexact H1
      iintro ⟨H0, H1, H2, HS0⟩
      iframe Hr Hg Ho H0 H1 HS0
      iexists _; iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
import proofs.«159937_j69277822484503_1_alg».proof.Proof.Gen.KernelIdeal.Launch
import proofs.«159937_j69277822484503_1_alg».proof.Proof.Gen.KernelIdeal.Skeleton
import proofs.«159937_j69277822484503_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev Region1.condFirst (i : grid1.Coords) : Prop := (Scalar.cmpi .ne (Scalar.extui (Scalar.cmpi .eq (BitVec.ofNat 32 (i 1).val) 0#32)) 0#32) = 1#1
theorem Region1.hcondFirst : ∀ t : Fin cfg1.N, Region1.condFirst (grid1.coords t) ↔ t.val % 4 = 0 := by decide +kernel

abbrev Region1.condLast (i : grid1.Coords) : Prop := k1_cond2 i = 1#1
theorem Region1.hcondLast : ∀ t : Fin cfg1.N, Region1.condLast (grid1.coords t) ↔ t.val % 4 = 3 := by decide +kernel

theorem Region1.idleAt_5 : ∀ t : Fin cfg1.N, t.val % 4 ≠ 3 → cfg1.idle 5 (grid1.coords t) = true ∧ (cfg1.win 5).flush t = false := by decide +kernel
theorem Region1.liveAt_5 : ∀ t : Fin cfg1.N, t.val % 4 = 3 → cfg1.idle 5 (grid1.coords t) = false := by decide +kernel

abbrev Region1.scM : Memref sig .tc .vmem S2048x128 .f32 := Memref.whole cc1_scratch0

abbrev Region1.own (c : Dev nD) {S : Shape} {e : EltTy} (m : Memref sig .tc .vmem S e) (x : Vec F S e) : sProp 𝕄 :=
  owns (c : Thread nD τ) m fullShare x

abbrev Region1.others (c : Dev nD) : sProp 𝕄 :=
  Pipeline.scopedRestBut spec1 c [cc1_scratch0]

theorem Region1.PhiA_eq (c : Dev nD) :
    (Pipeline.ΦA spec1 c : sProp 𝕄)
      = iprop(iprop((∃ d, Region1.own c Region1.scM d) ∗ Region1.others (F := F) c) ∗ (∃ r, prngReg c r)) := by
  unfold Pipeline.ΦA
  rw [Pipeline.scopedRest_split_of_list spec1 c [cc1_scratch0] (by decide) (by decide)]
  simp only [Region1.own, Region1.scM, owns_whole]; try rfl

section
variable (c : Dev nD) (i : grid1.Coords)
  (arg2 : Memref sig .tc .vmem S2048x2048 .bf16) (harg2 : arg2.IsWhole) (arg3 : Memref sig .tc .vmem S2048x128 .bf16) (harg3 : arg3.IsWhole) (arg4 : Memref sig .tc .vmem S2048x128 .f32) (harg4 : arg4.IsWhole)
  (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole) (arg8 : Memref sig .tc .vmem S2048x128 .f32) (harg8 : arg8.IsWhole)
  (x0 : Vec F S2048x2048 .bf16) (x1 : Vec F S2048x128 .bf16) (x2 : Vec F S2048x128 .f32) (x3 : Vec F S2048x1 .f32) (x4 : Vec F S2048x1 .f32) (xs0 : Vec F S2048x128 .f32)

theorem Region1.zeroOff : (![0, 0] : Fin 2 → Nat) = fun _ => 0 := funext fun a => by fin_cases a <;> rfl

-- One run of the body in each control case (k = 0, k = 1 or 2, k = 3): the sum starts from `s`, the output buffer ends at `y5`.
set_option maxHeartbeats 1000000 in
theorem Region1.run (x5 y5 s : Vec F S2048x128 .f32)
    (h : Region1.condFirst i ∧ ¬Region1.condLast i ∧ s = k1_pay1 ∧ y5 = x5 ∨ ¬Region1.condFirst i ∧ ¬Region1.condLast i ∧ s = xs0 ∧ y5 = x5
      ∨ ¬Region1.condFirst i ∧ Region1.condLast i ∧ s = xs0 ∧ y5 = k1_pay3 x3 (k1_pay2 xs0 x0 x1) x4 x2)
    (E : Set ℕ) (K : PUnit → sProp 𝕄) :
    iprop(Region1.own c arg2 x0 ∗ Region1.own c arg3 x1 ∗ Region1.own c arg4 x2 ∗ Region1.own c arg5 x3 ∗ Region1.own c arg6 x4 ∗ Region1.own c arg7 x5 ∗ Region1.own c arg8 xs0
        ∗ (iprop(Region1.own c arg2 x0 ∗ Region1.own c arg3 x1 ∗ Region1.own c arg4 x2 ∗ Region1.own c arg5 x3 ∗ Region1.own c arg6 x4 ∗ Region1.own c arg7 y5 ∗ Region1.own c arg8 (k1_pay2 s x0 x1)) -∗ K ⟨⟩))
      ⊢ wp frame (wpE (defs₀ (F := F)) Variants.none c none) E (cc1__fused_kernel i arg2 harg2 arg3 harg3 arg4 harg4 arg5 harg5 arg6 harg6 arg7 harg7 arg8 harg8) K := by
  simp only [cc1__fused_kernel_eq_skeleton]; unfold cc1__fused_kernel_skel
  unfold Region1.own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  obtain ⟨hc0, hc1, rfl, rfl⟩ | ⟨hc0, hc1, rfl, rfl⟩ | ⟨hc0, hc1, rfl, rfl⟩ := h
  all_goals
    sl_exec (disch := first | exact hc0 | exact hc1)
    sl_step
    iapply Hk
    isplitl [H0]
    on_goal 2 => isplitl [H1]
    on_goal 3 => isplitl [H2]
    on_goal 4 => isplitl [H3]
    on_goal 5 => isplitl [H4]
    on_goal 6 => isplitl [H5]
    all_goals
      iexists _; isplitr
      swap; · first | iexact H0 | iexact H1 | iexact H2 | iexact H3 | iexact H4 | iexact H5 | iexact HS0
      ipureintro
      first
      | exact (View.read_writes_eq_canon _ _ _ (View.cover_of_tiledL _ (Shape.size _) (by sl_kernel_rfl))).trans (by
          sl_unfold_words
          rw [View.canon_cons_unit_zero Region1.zeroOff]
          simp only [View.readCov_unit_zero (S := S2048x128) _ Region1.zeroOff, View.readAt_eq_ld, harg2.read_unread, harg3.read_unread, harg4.read_unread, harg5.read_unread, harg6.read_unread, harg8.read_unread, View.ld_unit_zero (S := S2048x2048) Region1.zeroOff, View.ld_unit_zero (S := S2048x128) Region1.zeroOff, View.ld_unit_zero (S := S2048x1) Region1.zeroOff])
      | exact Memref.IsWhole.read_unread _ _

end

-- The running sum after point `n`, started again from zero where `n % 4 = 0`.
def Region1.acc (c : Dev nD) : (n : ℕ) → n < cfg1.N → Vec F S2048x128 .f32
  | 0, hn => k1_pay2 (k1_pay1 (F := F)) (iblk1 V c 0 ⟨0, hn⟩) (iblk1 V c 1 ⟨0, hn⟩)
  | n + 1, hn => k1_pay2 (if (n + 1) % 4 = 0 then k1_pay1 (F := F) else Region1.acc c n (Nat.lt_of_succ_lt hn)) (iblk1 V c 0 ⟨n + 1, hn⟩) (iblk1 V c 1 ⟨n + 1, hn⟩)

def outsAt1 (c : Dev nD) : (n : ℕ) → n < cfg1.N → Vec F S2048x128 .f32 × Vec F S2048x128 .f32 :=
  fun n hn => (k1_pay3 (iblk1 V c 3 ⟨n, hn⟩) (Region1.acc V c n hn) (iblk1 V c 4 ⟨n, hn⟩) (iblk1 V c 2 ⟨n, hn⟩), Region1.acc V c n hn)

theorem outsAt1_acc_first (c : Dev nD) (t : Fin cfg1.N) (h : t.val % 4 = 0) :
    (outsAt1 V c t.val t.isLt).2 = k1_pay2 (k1_pay1 (F := F)) (iblk1 V c 0 t) (iblk1 V c 1 t) := by
  obtain ⟨_ | n, hn⟩ := t
  · rfl
  · show k1_pay2 (if (n + 1) % 4 = 0 then _ else _) _ _ = _
    rw [if_pos h]

theorem outsAt1_acc_next (c : Dev nD) (t : Fin cfg1.N) (h : t.val % 4 ≠ 0) :
    (outsAt1 V c t.val t.isLt).2 = k1_pay2 (outsAt1 V c (t.val - 1) (Nat.lt_of_le_of_lt (Nat.sub_le _ _) t.isLt)).2 (iblk1 V c 0 t) (iblk1 V c 1 t) := by
  obtain ⟨_ | n, hn⟩ := t
  · exact absurd (Nat.zero_mod 4) h
  · show k1_pay2 (if (n + 1) % 4 = 0 then _ else _) _ _ = _
    rw [if_neg h]; rfl

theorem outsAt1_out_last (c : Dev nD) (t : Fin cfg1.N) (h : t.val % 4 = 3) :
    (outsAt1 V c t.val t.isLt).1 = k1_pay3 (iblk1 V c 3 t) (outsAt1 V c t.val t.isLt).2 (iblk1 V c 4 t) (iblk1 V c 2 t) := rfl

-- Before point `n` the scratch holds the sum the point before left; before the first point, anything.
def Region1.PhiS (c : Dev nD) : (n : ℕ) → n ≤ cfg1.N → sProp 𝕄
  | 0, _ => Pipeline.ΦA spec1 c
  | n + 1, hn => iprop(iprop(Region1.own c Region1.scM ((outsAt1 V c n hn).2) ∗ Region1.others (F := F) c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := Region1.PhiS V c t.val (Nat.le_of_lt_succ t.isLt)
  q _ := fullShare
  owed _ := 0

theorem A_eq1 (c : Dev nD) (w : Fin cfg1.W) : (dat1 V c).A w = V c (Pipeline.arrRef spec1 w) := rfl

theorem Region1.Phi_pos (c : Dev nD) : ∀ (t : Fin cfg1.N) (hz : t.val ≠ 0), (dat1 V c).Φ t.castSucc
    = iprop(iprop(Region1.own c Region1.scM ((outsAt1 V c (t.val - 1) (Nat.lt_of_le_of_lt (Nat.sub_le _ _) t.isLt)).2) ∗ Region1.others (F := F) c) ∗ (∃ r, prngReg c r))
  | ⟨0, _⟩, hz => absurd rfl hz
  | ⟨n + 1, _⟩, _ => rfl

theorem after1_5 (c : Dev nD) (t : Fin cfg1.N) : (dat1 V c).after 5 t = (outsAt1 V c t.val t.isLt).1 := rfl

theorem hin1 (c : Dev nD) : Pipeline.ΦA spec1 c ⊢ (dat1 V c).Φ 0 :=
  Idealize.SL.BI.Entails.refl _

-- Forgetting what the scratch holds gives the region's own invariant back.
theorem Region1.Phi_out (c : Dev nD) : ∀ t : Fin (cfg1.N + 1), (dat1 V c).Φ t ⊢ Pipeline.ΦA spec1 c
  | ⟨0, _⟩ => by show Pipeline.ΦA spec1 c ⊢ _; rfl
  | ⟨n + 1, h⟩ => by
    rw [Region1.PhiA_eq]; show iprop(iprop(_ ∗ _) ∗ _) ⊢ _
    iintro ⟨⟨HS0, HR⟩, Hg⟩
    iframe HR Hg
    iexists _; iexact HS0

theorem hout1 (c : Dev nD) : (dat1 V c).Φ (Fin.last cfg1.N) ⊢ Pipeline.ΦA spec1 c :=
  Region1.Phi_out V c _

-- The body at any point, by the point's residue mod 4.
theorem Region1.sound_body (c : Dev nD) (t : Fin cfg1.N) :
    iprop((dat1 V c).Φ t.castSucc ∗ (dat1 V c).owesAt () t.castSucc
      ∗ (∃ d, Region1.own c (win1_0.stage (cfg1.slots t 0)) ((dat1 V c).before 0 t d))
      ∗ (∃ d, Region1.own c (win1_1.stage (cfg1.slots t 1)) ((dat1 V c).before 1 t d))
      ∗ (∃ d, Region1.own c (win1_2.stage (cfg1.slots t 2)) ((dat1 V c).before 2 t d))
      ∗ (∃ d, Region1.own c (win1_3.stage (cfg1.slots t 3)) ((dat1 V c).before 3 t d))
      ∗ (∃ d, Region1.own c (win1_4.stage (cfg1.slots t 4)) ((dat1 V c).before 4 t d))
      ∗ (∃ d, Region1.own c (win1_5.stage (cfg1.slots t 5)) ((dat1 V c).before 5 t d)))
    ⊢ wp frame (wpE (defs₀ (F := F)) Variants.none c none) Set.univ (bodyAt1 t) (fun _ =>
      iprop(iprop(iprop(Region1.own c Region1.scM (outsAt1 V c t.val t.isLt).2 ∗ Region1.others (F := F) c) ∗ (∃ r, prngReg c r)) ∗ (dat1 V c).owesAt () t.castSucc
        ∗ Region1.own c (win1_0.stage (cfg1.slots t 0)) (iblk1 V c 0 t) ∗ Region1.own c (win1_1.stage (cfg1.slots t 1)) (iblk1 V c 1 t) ∗ Region1.own c (win1_2.stage (cfg1.slots t 2)) (iblk1 V c 2 t)
        ∗ Region1.own c (win1_3.stage (cfg1.slots t 3)) (iblk1 V c 3 t) ∗ Region1.own c (win1_4.stage (cfg1.slots t 4)) (iblk1 V c 4 t) ∗ (dat1 V c).leavesExact 5 t)) := by
  unfold bodyAt1
  simp only [show ∀ d, (dat1 V c).before 0 t d = iblk1 V c 0 t from (dat1 V c).before_in_eq_fetched 0 rfl (fun _ => rfl) (fun _ _ _ => rfl) (fun _ => rfl) t,
    show ∀ d, (dat1 V c).before 1 t d = iblk1 V c 1 t from (dat1 V c).before_in_eq_fetched 1 rfl (fun _ => rfl) (fun _ _ _ => rfl) (fun _ => rfl) t,
    show ∀ d, (dat1 V c).before 2 t d = iblk1 V c 2 t from (dat1 V c).before_in_eq_fetched 2 rfl (fun _ => rfl) (fun _ _ _ => rfl) (fun _ => rfl) t,
    show ∀ d, (dat1 V c).before 3 t d = iblk1 V c 3 t from (dat1 V c).before_in_eq_fetched 3 rfl (fun _ => rfl) (fun _ _ _ => rfl) (fun _ => rfl) t,
    show ∀ d, (dat1 V c).before 4 t d = iblk1 V c 4 t from (dat1 V c).before_in_eq_fetched 4 rfl (fun _ => rfl) (fun _ _ _ => rfl) (fun _ => rfl) t]
  by_cases h1 : t.val % 4 = 3
  · have h0 : ¬t.val % 4 = 0 := by omega
    have hz : t.val ≠ 0 := by omega
    rw [show (dat1 V c).leavesExact 5 t = Region1.own c (win1_5.stage (cfg1.slots t 5)) ((dat1 V c).after 5 t) from by
      unfold Dat.leavesExact; rw [Region1.liveAt_5 t h1], after1_5, outsAt1_out_last V c t h1, outsAt1_acc_next V c t h0]
    rw [Region1.Phi_pos V c t hz]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply (Region1.run c (grid1.coords t) _ _ _ _ _ _ _ _ _ _ _ _ _ _ _ _ _ _ _ _ _ _ _ (.inr (.inr ⟨mt (Region1.hcondFirst t).mp h0, (Region1.hcondLast t).mpr h1, rfl, rfl⟩)) Set.univ _)
    iframe H0 H1 H2 H3 H4 H5 HS0
    iintro ⟨H0, H1, H2, H3, H4, H5, HS0⟩
    iframe
  · rw [Dat.leavesExact_idle (dat1 V c) 5 t (Region1.idleAt_5 t h1).1 (Region1.idleAt_5 t h1).2]
    by_cases h0 : t.val % 4 = 0
    · rw [outsAt1_acc_first V c t h0]
      refine (sep_mono_left (Region1.Phi_out V c t.castSucc)).trans ?_
      rw [Region1.PhiA_eq]
      iintro ⟨⟨⟨⟨%ds, HS0⟩, HR⟩, Hg⟩, Ho, ⟨%d0, H0⟩, ⟨%d1, H1⟩, ⟨%d2, H2⟩, ⟨%d3, H3⟩, ⟨%d4, H4⟩, ⟨%d5, H5⟩⟩
      iapply (Region1.run c (grid1.coords t) _ _ _ _ _ _ _ _ _ _ _ _ _ _ _ _ _ _ _ _ _ _ _ (.inl ⟨(Region1.hcondFirst t).mpr h0, mt (Region1.hcondLast t).mp h1, rfl, rfl⟩) Set.univ _)
      iframe H0 H1 H2 H3 H4 H5 HS0
      iintro ⟨H0, H1, H2, H3, H4, H5, HS0⟩
      iframe HR Hg Ho H0 H1 H2 H3 H4 HS0
      iexists _; iexact H5
    · have hz : t.val ≠ 0 := fun h => h0 (by rw [h])
      rw [outsAt1_acc_next V c t h0, Region1.Phi_pos V c t hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply (Region1.run c (grid1.coords t) _ _ _ _ _ _ _ _ _ _ _ _ _ _ _ _ _ _ _ _ _ _ _ (.inr (.inl ⟨mt (Region1.hcondFirst t).mp h0, mt (Region1.hcondLast t).mp h1, rfl, rfl⟩)) Set.univ _)
      iframe H0 H1 H2 H3 H4 H5 HS0
      iintro ⟨H0, H1, H2, H3, H4, H5, HS0⟩
      iframe HR Hg Ho H0 H1 H2 H3 H4 HS0
      iexists _; iexact H5

theorem body_obligation1 (c : Dev nD) : BodyObligation (dat1 (F := F) V c) (defs₀ (F := F)) Variants.none () Set.univ := fun t => by
  rw [bigSep_W1, bigSep_W1]
  exact Region1.sound_body V c t

end Cert.KernelIdeal.Hand

end
-- ==== Proof.Region2.lean ====
import proofs.«159937_j69277822484503_1_alg».proof.Proof.Gen.KernelIdeal.Launch
import proofs.«159937_j69277822484503_1_alg».proof.Proof.Gen.KernelIdeal.Skeleton
import proofs.«159937_j69277822484503_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev Region2.condFirst (i : grid2.Coords) : Prop := (Scalar.cmpi .ne (Scalar.extui (Scalar.cmpi .eq (BitVec.ofNat 32 (i 1).val) 0#32)) 0#32) = 1#1
theorem Region2.hcondFirst : ∀ t : Fin cfg2.N, Region2.condFirst (grid2.coords t) ↔ t.val % 4 = 0 := by decide +kernel

abbrev Region2.condLast (i : grid2.Coords) : Prop := k2_cond2 i = 1#1
theorem Region2.hcondLast : ∀ t : Fin cfg2.N, Region2.condLast (grid2.coords t) ↔ t.val % 4 = 3 := by decide +kernel

theorem Region2.idleAt_5 : ∀ t : Fin cfg2.N, t.val % 4 ≠ 3 → cfg2.idle 5 (grid2.coords t) = true ∧ (cfg2.win 5).flush t = false := by decide +kernel
theorem Region2.liveAt_5 : ∀ t : Fin cfg2.N, t.val % 4 = 3 → cfg2.idle 5 (grid2.coords t) = false := by decide +kernel

abbrev Region2.scM : Memref sig .tc .vmem S2048x64 .f32 := Memref.whole cc2_scratch0

abbrev Region2.own (c : Dev nD) {S : Shape} {e : EltTy} (m : Memref sig .tc .vmem S e) (x : Vec F S e) : sProp 𝕄 :=
  owns (c : Thread nD τ) m fullShare x

abbrev Region2.others (c : Dev nD) : sProp 𝕄 :=
  Pipeline.scopedRestBut spec2 c [cc2_scratch0]

theorem Region2.PhiA_eq (c : Dev nD) :
    (Pipeline.ΦA spec2 c : sProp 𝕄)
      = iprop(iprop((∃ d, Region2.own c Region2.scM d) ∗ Region2.others (F := F) c) ∗ (∃ r, prngReg c r)) := by
  unfold Pipeline.ΦA
  rw [Pipeline.scopedRest_split_of_list spec2 c [cc2_scratch0] (by decide) (by decide)]
  simp only [Region2.own, Region2.scM, owns_whole]; try rfl

section
variable (c : Dev nD) (i : grid2.Coords)
  (arg2 : Memref sig .tc .vmem S2048x2048 .bf16) (harg2 : arg2.IsWhole) (arg3 : Memref sig .tc .vmem S2048x64 .bf16) (harg3 : arg3.IsWhole) (arg4 : Memref sig .tc .vmem S2048x64 .f32) (harg4 : arg4.IsWhole)
  (arg5 : Memref sig .tc .vmem S2048x1 .f32) (harg5 : arg5.IsWhole) (arg6 : Memref sig .tc .vmem S2048x1 .f32) (harg6 : arg6.IsWhole) (arg7 : Memref sig .tc .vmem S2048x64 .f32) (harg7 : arg7.IsWhole) (arg8 : Memref sig .tc .vmem S2048x64 .f32) (harg8 : arg8.IsWhole)
  (x0 : Vec F S2048x2048 .bf16) (x1 : Vec F S2048x64 .bf16) (x2 : Vec F S2048x64 .f32) (x3 : Vec F S2048x1 .f32) (x4 : Vec F S2048x1 .f32) (xs0 : Vec F S2048x64 .f32)

theorem Region2.zeroOff : (![0, 0] : Fin 2 → Nat) = fun _ => 0 := funext fun a => by fin_cases a <;> rfl

-- One run of the body in each control case (k = 0, k = 1 or 2, k = 3): the sum starts from `s`, the output buffer ends at `y5`.
set_option maxHeartbeats 1000000 in
theorem Region2.run (x5 y5 s : Vec F S2048x64 .f32)
    (h : Region2.condFirst i ∧ ¬Region2.condLast i ∧ s = k2_pay1 ∧ y5 = x5 ∨ ¬Region2.condFirst i ∧ ¬Region2.condLast i ∧ s = xs0 ∧ y5 = x5
      ∨ ¬Region2.condFirst i ∧ Region2.condLast i ∧ s = xs0 ∧ y5 = k2_pay3 x3 (k2_pay2 xs0 x0 x1) x4 x2)
    (E : Set ℕ) (K : PUnit → sProp 𝕄) :
    iprop(Region2.own c arg2 x0 ∗ Region2.own c arg3 x1 ∗ Region2.own c arg4 x2 ∗ Region2.own c arg5 x3 ∗ Region2.own c arg6 x4 ∗ Region2.own c arg7 x5 ∗ Region2.own c arg8 xs0
        ∗ (iprop(Region2.own c arg2 x0 ∗ Region2.own c arg3 x1 ∗ Region2.own c arg4 x2 ∗ Region2.own c arg5 x3 ∗ Region2.own c arg6 x4 ∗ Region2.own c arg7 y5 ∗ Region2.own c arg8 (k2_pay2 s x0 x1)) -∗ K ⟨⟩))
      ⊢ wp frame (wpE (defs₀ (F := F)) Variants.none c none) E (cc2__fused_kernel i arg2 harg2 arg3 harg3 arg4 harg4 arg5 harg5 arg6 harg6 arg7 harg7 arg8 harg8) K := by
  simp only [cc2__fused_kernel_eq_skeleton]; unfold cc2__fused_kernel_skel
  unfold Region2.own owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  obtain ⟨hc0, hc1, rfl, rfl⟩ | ⟨hc0, hc1, rfl, rfl⟩ | ⟨hc0, hc1, rfl, rfl⟩ := h
  all_goals
    sl_exec (disch := first | exact hc0 | exact hc1)
    sl_step
    iapply Hk
    isplitl [H0]
    on_goal 2 => isplitl [H1]
    on_goal 3 => isplitl [H2]
    on_goal 4 => isplitl [H3]
    on_goal 5 => isplitl [H4]
    on_goal 6 => isplitl [H5]
    all_goals
      iexists _; isplitr
      swap; · first | iexact H0 | iexact H1 | iexact H2 | iexact H3 | iexact H4 | iexact H5 | iexact HS0
      ipureintro
      first
      | exact (View.read_writes_eq_canon _ _ _ (View.cover_of_tiledL _ (Shape.size _) (by sl_kernel_rfl))).trans (by
          sl_unfold_words
          rw [View.canon_cons_unit_zero Region2.zeroOff]
          simp only [View.readCov_unit_zero (S := S2048x64) _ Region2.zeroOff, View.readAt_eq_ld, harg2.read_unread, harg3.read_unread, harg4.read_unread, harg5.read_unread, harg6.read_unread, harg8.read_unread, View.ld_unit_zero (S := S2048x2048) Region2.zeroOff, View.ld_unit_zero (S := S2048x64) Region2.zeroOff, View.ld_unit_zero (S := S2048x1) Region2.zeroOff])
      | exact Memref.IsWhole.read_unread _ _

end

-- The running sum after point `n`, started again from zero where `n % 4 = 0`.
def Region2.acc (c : Dev nD) : (n : ℕ) → n < cfg2.N → Vec F S2048x64 .f32
  | 0, hn => k2_pay2 (k2_pay1 (F := F)) (iblk2 V c 0 ⟨0, hn⟩) (iblk2 V c 1 ⟨0, hn⟩)
  | n + 1, hn => k2_pay2 (if (n + 1) % 4 = 0 then k2_pay1 (F := F) else Region2.acc c n (Nat.lt_of_succ_lt hn)) (iblk2 V c 0 ⟨n + 1, hn⟩) (iblk2 V c 1 ⟨n + 1, hn⟩)

def outsAt2 (c : Dev nD) : (n : ℕ) → n < cfg2.N → Vec F S2048x64 .f32 × Vec F S2048x64 .f32 :=
  fun n hn => (k2_pay3 (iblk2 V c 3 ⟨n, hn⟩) (Region2.acc V c n hn) (iblk2 V c 4 ⟨n, hn⟩) (iblk2 V c 2 ⟨n, hn⟩), Region2.acc V c n hn)

theorem outsAt2_acc_first (c : Dev nD) (t : Fin cfg2.N) (h : t.val % 4 = 0) :
    (outsAt2 V c t.val t.isLt).2 = k2_pay2 (k2_pay1 (F := F)) (iblk2 V c 0 t) (iblk2 V c 1 t) := by
  obtain ⟨_ | n, hn⟩ := t
  · rfl
  · show k2_pay2 (if (n + 1) % 4 = 0 then _ else _) _ _ = _
    rw [if_pos h]

theorem outsAt2_acc_next (c : Dev nD) (t : Fin cfg2.N) (h : t.val % 4 ≠ 0) :
    (outsAt2 V c t.val t.isLt).2 = k2_pay2 (outsAt2 V c (t.val - 1) (Nat.lt_of_le_of_lt (Nat.sub_le _ _) t.isLt)).2 (iblk2 V c 0 t) (iblk2 V c 1 t) := by
  obtain ⟨_ | n, hn⟩ := t
  · exact absurd (Nat.zero_mod 4) h
  · show k2_pay2 (if (n + 1) % 4 = 0 then _ else _) _ _ = _
    rw [if_neg h]; rfl

theorem outsAt2_out_last (c : Dev nD) (t : Fin cfg2.N) (h : t.val % 4 = 3) :
    (outsAt2 V c t.val t.isLt).1 = k2_pay3 (iblk2 V c 3 t) (outsAt2 V c t.val t.isLt).2 (iblk2 V c 4 t) (iblk2 V c 2 t) := rfl

-- Before point `n` the scratch holds the sum the point before left; before the first point, anything.
def Region2.PhiS (c : Dev nD) : (n : ℕ) → n ≤ cfg2.N → sProp 𝕄
  | 0, _ => Pipeline.ΦA spec2 c
  | n + 1, hn => iprop(iprop(Region2.own c Region2.scM ((outsAt2 V c n hn).2) ∗ Region2.others (F := F) c) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := Region2.PhiS V c t.val (Nat.le_of_lt_succ t.isLt)
  q _ := fullShare
  owed _ := 0

theorem A_eq2 (c : Dev nD) (w : Fin cfg2.W) : (dat2 V c).A w = V c (Pipeline.arrRef spec2 w) := rfl

theorem Region2.Phi_pos (c : Dev nD) : ∀ (t : Fin cfg2.N) (hz : t.val ≠ 0), (dat2 V c).Φ t.castSucc
    = iprop(iprop(Region2.own c Region2.scM ((outsAt2 V c (t.val - 1) (Nat.lt_of_le_of_lt (Nat.sub_le _ _) t.isLt)).2) ∗ Region2.others (F := F) c) ∗ (∃ r, prngReg c r))
  | ⟨0, _⟩, hz => absurd rfl hz
  | ⟨n + 1, _⟩, _ => rfl

theorem after2_5 (c : Dev nD) (t : Fin cfg2.N) : (dat2 V c).after 5 t = (outsAt2 V c t.val t.isLt).1 := rfl

theorem hin2 (c : Dev nD) : Pipeline.ΦA spec2 c ⊢ (dat2 V c).Φ 0 :=
  Idealize.SL.BI.Entails.refl _

-- Forgetting what the scratch holds gives the region's own invariant back.
theorem Region2.Phi_out (c : Dev nD) : ∀ t : Fin (cfg2.N + 1), (dat2 V c).Φ t ⊢ Pipeline.ΦA spec2 c
  | ⟨0, _⟩ => by show Pipeline.ΦA spec2 c ⊢ _; rfl
  | ⟨n + 1, h⟩ => by
    rw [Region2.PhiA_eq]; show iprop(iprop(_ ∗ _) ∗ _) ⊢ _
    iintro ⟨⟨HS0, HR⟩, Hg⟩
    iframe HR Hg
    iexists _; iexact HS0

theorem hout2 (c : Dev nD) : (dat2 V c).Φ (Fin.last cfg2.N) ⊢ Pipeline.ΦA spec2 c :=
  Region2.Phi_out V c _

-- The body at any point, by the point's residue mod 4.
theorem Region2.sound_body (c : Dev nD) (t : Fin cfg2.N) :
    iprop((dat2 V c).Φ t.castSucc ∗ (dat2 V c).owesAt () t.castSucc
      ∗ (∃ d, Region2.own c (win2_0.stage (cfg2.slots t 0)) ((dat2 V c).before 0 t d))
      ∗ (∃ d, Region2.own c (win2_1.stage (cfg2.slots t 1)) ((dat2 V c).before 1 t d))
      ∗ (∃ d, Region2.own c (win2_2.stage (cfg2.slots t 2)) ((dat2 V c).before 2 t d))
      ∗ (∃ d, Region2.own c (win2_3.stage (cfg2.slots t 3)) ((dat2 V c).before 3 t d))
      ∗ (∃ d, Region2.own c (win2_4.stage (cfg2.slots t 4)) ((dat2 V c).before 4 t d))
      ∗ (∃ d, Region2.own c (win2_5.stage (cfg2.slots t 5)) ((dat2 V c).before 5 t d)))
    ⊢ wp frame (wpE (defs₀ (F := F)) Variants.none c none) Set.univ (bodyAt2 t) (fun _ =>
      iprop(iprop(iprop(Region2.own c Region2.scM (outsAt2 V c t.val t.isLt).2 ∗ Region2.others (F := F) c) ∗ (∃ r, prngReg c r)) ∗ (dat2 V c).owesAt () t.castSucc
        ∗ Region2.own c (win2_0.stage (cfg2.slots t 0)) (iblk2 V c 0 t) ∗ Region2.own c (win2_1.stage (cfg2.slots t 1)) (iblk2 V c 1 t) ∗ Region2.own c (win2_2.stage (cfg2.slots t 2)) (iblk2 V c 2 t)
        ∗ Region2.own c (win2_3.stage (cfg2.slots t 3)) (iblk2 V c 3 t) ∗ Region2.own c (win2_4.stage (cfg2.slots t 4)) (iblk2 V c 4 t) ∗ (dat2 V c).leavesExact 5 t)) := by
  unfold bodyAt2
  simp only [show ∀ d, (dat2 V c).before 0 t d = iblk2 V c 0 t from (dat2 V c).before_in_eq_fetched 0 rfl (fun _ => rfl) (fun _ _ _ => rfl) (fun _ => rfl) t,
    show ∀ d, (dat2 V c).before 1 t d = iblk2 V c 1 t from (dat2 V c).before_in_eq_fetched 1 rfl (fun _ => rfl) (fun _ _ _ => rfl) (fun _ => rfl) t,
    show ∀ d, (dat2 V c).before 2 t d = iblk2 V c 2 t from (dat2 V c).before_in_eq_fetched 2 rfl (fun _ => rfl) (fun _ _ _ => rfl) (fun _ => rfl) t,
    show ∀ d, (dat2 V c).before 3 t d = iblk2 V c 3 t from (dat2 V c).before_in_eq_fetched 3 rfl (fun _ => rfl) (fun _ _ _ => rfl) (fun _ => rfl) t,
    show ∀ d, (dat2 V c).before 4 t d = iblk2 V c 4 t from (dat2 V c).before_in_eq_fetched 4 rfl (fun _ => rfl) (fun _ _ _ => rfl) (fun _ => rfl) t]
  by_cases h1 : t.val % 4 = 3
  · have h0 : ¬t.val % 4 = 0 := by omega
    have hz : t.val ≠ 0 := by omega
    rw [show (dat2 V c).leavesExact 5 t = Region2.own c (win2_5.stage (cfg2.slots t 5)) ((dat2 V c).after 5 t) from by
      unfold Dat.leavesExact; rw [Region2.liveAt_5 t h1], after2_5, outsAt2_out_last V c t h1, outsAt2_acc_next V c t h0]
    rw [Region2.Phi_pos V c t hz]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply (Region2.run c (grid2.coords t) _ _ _ _ _ _ _ _ _ _ _ _ _ _ _ _ _ _ _ _ _ _ _ (.inr (.inr ⟨mt (Region2.hcondFirst t).mp h0, (Region2.hcondLast t).mpr h1, rfl, rfl⟩)) Set.univ _)
    iframe H0 H1 H2 H3 H4 H5 HS0
    iintro ⟨H0, H1, H2, H3, H4, H5, HS0⟩
    iframe
  · rw [Dat.leavesExact_idle (dat2 V c) 5 t (Region2.idleAt_5 t h1).1 (Region2.idleAt_5 t h1).2]
    by_cases h0 : t.val % 4 = 0
    · rw [outsAt2_acc_first V c t h0]
      refine (sep_mono_left (Region2.Phi_out V c t.castSucc)).trans ?_
      rw [Region2.PhiA_eq]
      iintro ⟨⟨⟨⟨%ds, HS0⟩, HR⟩, Hg⟩, Ho, ⟨%d0, H0⟩, ⟨%d1, H1⟩, ⟨%d2, H2⟩, ⟨%d3, H3⟩, ⟨%d4, H4⟩, ⟨%d5, H5⟩⟩
      iapply (Region2.run c (grid2.coords t) _ _ _ _ _ _ _ _ _ _ _ _ _ _ _ _ _ _ _ _ _ _ _ (.inl ⟨(Region2.hcondFirst t).mpr h0, mt (Region2.hcondLast t).mp h1, rfl, rfl⟩) Set.univ _)
      iframe H0 H1 H2 H3 H4 H5 HS0
      iintro ⟨H0, H1, H2, H3, H4, H5, HS0⟩
      iframe HR Hg Ho H0 H1 H2 H3 H4 HS0
      iexists _; iexact H5
    · have hz : t.val ≠ 0 := fun h => h0 (by rw [h])
      rw [outsAt2_acc_next V c t h0, Region2.Phi_pos V c t hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply (Region2.run c (grid2.coords t) _ _ _ _ _ _ _ _ _ _ _ _ _ _ _ _ _ _ _ _ _ _ _ (.inr (.inl ⟨mt (Region2.hcondFirst t).mp h0, mt (Region2.hcondLast t).mp h1, rfl, rfl⟩)) Set.univ _)
      iframe H0 H1 H2 H3 H4 H5 HS0
      iintro ⟨H0, H1, H2, H3, H4, H5, HS0⟩
      iframe HR Hg Ho H0 H1 H2 H3 H4 HS0
      iexists _; iexact H5

theorem body_obligation2 (c : Dev nD) : BodyObligation (dat2 (F := F) V c) (defs₀ (F := F)) Variants.none () Set.univ := fun t => by
  rw [bigSep_W2, bigSep_W2]
  exact Region2.sound_body V c t

end Cert.KernelIdeal.Hand

end
-- ==== Proof.Run.lean ====
import proofs.«159937_j69277822484503_1_alg».proof.Proof.Region0
import proofs.«159937_j69277822484503_1_alg».proof.Proof.Region1
import proofs.«159937_j69277822484503_1_alg».proof.Proof.Region2
import proofs.«159937_j69277822484503_1_alg».proof.Proof.Gen.KernelIdeal.Regions
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m (c, b)
abbrev V0 : (c : Dev nD) → (b : Ref sig .tc) → Buf (Elt F) ((c : Thread nD τ).loc b) := fun c b => W0 m c b

def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N :=
  Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) :=
  Pipeline.withArrays_of_ne spec0 c _ _ b hb

abbrev W2 : Dev nD → Valuation τ sig (Elt F) := fun c => StableHlo.after hostOps1 (W1 m c)
abbrev V2 : (c : Dev nD) → (b : Ref sig .tc) → Buf (Elt F) ((c : Thread nD τ).loc b) := fun c b => W2 m c b

def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N :=
  Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb

abbrev W4 : Dev nD → Valuation τ sig (Elt F) := fun c => StableHlo.after hostOps2 (W3 m c)
abbrev W5 : Dev nD → Valuation τ sig (Elt F) := fun c => StableHlo.after hostOps2_1 (W4 m c)
abbrev W6 : Dev nD → Valuation τ sig (Elt F) := fun c => StableHlo.after hostOps2_2 (W5 m c)
abbrev V6 : (c : Dev nD) → (b : Ref sig .tc) → Buf (Elt F) ((c : Thread nD τ).loc b) := fun c b => W6 m c b

def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N :=
  Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) :=
  Pipeline.withArrays_of_ne spec2 c _ _ b hb

abbrev W8 : Dev nD → Valuation τ sig (Elt F) := fun c => StableHlo.after hostOps3 (W7 m c)
abbrev W9 : Dev nD → Valuation τ sig (Elt F) := fun c => StableHlo.after hostOps3_1 (W8 m c)

def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
  | ⟨2, _⟩ => fun c => dat2 (V6 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region takes the contents `Wi` to `Wo`, which differ only at the region's arrays.
def reg (p : Fin 3) (lf : Pipeline.LaunchFacts (nD := nD) (τ := τ) cfgs p) (Wi Wo : Dev nD → Valuation τ sig (Elt F))
    (hb : ∀ c, BodyObligation (pdats m p c) (defs₀ (F := F)) 𝒱₀ () Set.univ)
    (hi : ∀ c, (Pipeline.ΦA (cfgs p).spec c : sProp 𝕄) ⊢ (pdats m p c).Φ 0)
    (ho : ∀ c, (pdats m p c).Φ (Fin.last _) ⊢ (Pipeline.ΦA (cfgs p).spec c : sProp 𝕄))
    (hq : ∀ c w, (pdats m p c).q w = fullShare) (hz : ∀ c t, (pdats m p c).owed t = 0)
    (hr : ∀ c t, (pdats m p c).recorded t = Set.univ)
    (hA : ∀ c w, (pdats m p c).A w = Wi c (Proc.devRef .tc (Pipeline.arrRef (cfgs p).spec w)))
    (hF : ∀ c w, Wo c (Proc.devRef .tc (Pipeline.arrRef (cfgs p).spec w)) = (pdats m p c).arrAt w (cfgs p).N)
    (hR : ∀ c (b : Ref sig .tc), (∀ w, Pipeline.arrRef (cfgs p).spec w ≠ b) → Wo c (Proc.devRef .tc b) = Wi c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (cfgs p).spec c fun b => Wi c b
  hentry c := by
    unfold Pipeline.Dat.owesAt Pipeline.owesWithin Pipeline.Dat.bound
    rw [Pipeline.ownSems0_none, hz c, hr c]
    have hsplit := Pipeline.arrays_of_unscopedBufs (p := p) (pcfgs (F := F)) adm (pdats m) lf.win lf.arr_whole c
      ((pdats m p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp] <;> iassumption
  hin c := .trans (by unfold Pipeline.ΦA; iintro ⟨Hp, -, Hr⟩; isplitl [Hr] <;> iassumption) (hi c)
  hout c := (ho c).trans (by
    rw [Pipeline.ownSems0_none]; unfold Pipeline.ΦA
    iintro ⟨Hr, Hp⟩
    isplitl [Hp]; · iexact Hp
    isplitr; · iempintro
    iexact Hr)
  hexit c := by
    unfold Pipeline.Dat.owesAt Pipeline.owesWithin
    rw [hz c]
    have hjoin := Pipeline.unscopedBufs_of_arrays (p := p) (pcfgs (F := F)) adm lf.win lf.arr_whole c (pdats m) ((pdats m p c).share_full (hq c))
      (fun b => Wi c b) (fun b => Wo c b) ((pdats m p c).arrAt · (cfgs p).N) (fun w => (hF c w).symm)
      fun b hb => hR c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

abbrev segs : List (Pipeline.Seg (pcfgs (F := F)) adm (pdats m) () defs₀ 𝒱₀ L lv) :=
  [ .region (reg m 0 launch0 (W0 m) (W1 m) (body_obligation0 (V0 m)) (hin0 (V0 m)) (hout0 (V0 m))
      (fun _ _ => rfl) (fun _ _ => rfl) (fun _ _ => rfl) (fun _ _ => rfl) (W1_arr m) (W1_of_ne m)),
    .host (hseg hostOps1 hostOps1_sub hostOps1_fresh (W1 m)),
    .region (reg m 1 launch1 (W2 m) (W3 m) (body_obligation1 (V2 m)) (hin1 (V2 m)) (hout1 (V2 m))
      (fun _ _ => rfl) (fun _ _ => rfl) (fun _ _ => rfl) (fun _ _ => rfl) (W3_arr m) (W3_of_ne m)),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .region (reg m 2 launch2 (W6 m) (W7 m) (body_obligation2 (V6 m)) (hin2 (V6 m)) (hout2 (V6 m))
      (fun _ _ => rfl) (fun _ _ => rfl) (fun _ _ => rfl) (fun _ _ => rfl) (W7_arr m) (W7_of_ne m)),
    .host (hseg hostOps3 hostOps3_sub hostOps3_fresh (W7 m)),
    .host (hseg hostOps3_1 hostOps3_1_sub hostOps3_1_fresh (W8 m)) ]
theorem main_run (c : Dev nD) : main (F := F) c = Pipeline.Seg.run (segs m) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (W0 m c) ∗ R c)) (Tₙ := fun c => iprop(StableHlo.held (c : Thread nD τ) (Pipeline.ucRefs τ sig) (W9 m c) ∗ ∃ r, prngReg c r))
    (hch := ⟨fun _ => .rfl, fun _ => .rfl, fun _ => .rfl, fun _ => .rfl, fun _ => .rfl, fun _ => .rfl, fun _ => .rfl, fun _ => .rfl, fun _ => .rfl,
      fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

end Cert.KernelIdeal.Hand

end
-- ==== Proof.RunArgs.lean ====
import proofs.«159937_j69277822484503_1_alg».proof.Proof.Run

set_option maxRecDepth 16384

noncomputable section

namespace Cert.KernelIdeal.Hand

open Idealize.ShloMosaic Idealize.ShloMosaic.TcCoe Idealize.SL Idealize.SL.Sem
open Cert.KernelIdeal Cert.KernelIdeal.Gen

variable {F : FTy → Type} [FloatOps F]

variable (m : (ℓ : Loc nD τ sig) → Buf (Elt F) ℓ) (ρ : Dev nD → PrngReg)

-- No host stretch writes `b`, and `b` is no array of regions 1 and 2.
abbrev Kept (b : Ref sig .tc) : Prop :=
  b ∉ hostOps3_1_W ∧ b ∉ hostOps3_W ∧ (∀ w, Pipeline.arrRef spec2 w ≠ b) ∧ b ∉ hostOps2_2_W ∧ b ∉ hostOps2_1_W ∧ b ∉ hostOps2_W
    ∧ (∀ w, Pipeline.arrRef spec1 w ≠ b) ∧ b ∉ hostOps1_W

theorem W9_of (c : Dev nD) (b : Ref sig .tc) : Kept b → W9 m c b = W1 m c b
  | ⟨h9, h8, h7, h6, h5, h4, h3, h2⟩ =>
    (StableHlo.after_of_writes_sub _ _ hostOps3_1_writes h9).trans <| (StableHlo.after_of_writes_sub _ _ hostOps3_writes h8).trans <|
    (W7_of_ne m c b h7).trans <| (StableHlo.after_of_writes_sub _ _ hostOps2_2_writes h6).trans <|
    (StableHlo.after_of_writes_sub _ _ hostOps2_1_writes h5).trans <| (StableHlo.after_of_writes_sub _ _ hostOps2_writes h4).trans <|
    (W3_of_ne m c b h3).trans <| StableHlo.after_of_writes_sub _ _ hostOps1_writes h2

theorem W9_arg (c : Dev nD) (b : Ref sig .tc) (h : Kept b ∧ ∀ w, Pipeline.arrRef spec0 w ≠ b) :
    W9 m c b = m ((c.tc : Thread nD τ).loc b) :=
  (W9_of m c b h.1).trans (W1_of_ne m c b h.2)

theorem W9_main_arg0 (c : Dev nD) : W9 m c main_arg0 = m ((c.tc : Thread nD τ).loc main_arg0) := W9_arg m c _ (by decide)
-- Region 0 only reads this array.
theorem W9_main_arg1 (c : Dev nD) : W9 m c main_arg1 = m ((c.tc : Thread nD τ).loc main_arg1) :=
  (W9_of m c _ (by decide)).trans ((W1_arr m c 0).trans (((dat0 (V0 m) c).arrAt_in 0 rfl _).trans (A_eq0 (V0 m) c 0)))
theorem W9_main_arg2 (c : Dev nD) : W9 m c main_arg2 = m ((c.tc : Thread nD τ).loc main_arg2) := W9_arg m c _ (by decide)
theorem W9_main_arg3 (c : Dev nD) : W9 m c main_arg3 = m ((c.tc : Thread nD τ).loc main_arg3) := W9_arg m c _ (by decide)
theorem W9_main_arg4 (c : Dev nD) : W9 m c main_arg4 = m ((c.tc : Thread nD τ).loc main_arg4) := W9_arg m c _ (by decide)
theorem W9_main_arg5 (c : Dev nD) : W9 m c main_arg5 = m ((c.tc : Thread nD τ).loc main_arg5) := W9_arg m c _ (by decide)
theorem W9_main_arg6 (c : Dev nD) : W9 m c main_arg6 = m ((c.tc : Thread nD τ).loc main_arg6) := W9_arg m c _ (by decide)
theorem W9_main_arg7 (c : Dev nD) : W9 m c main_arg7 = m ((c.tc : Thread nD τ).loc main_arg7) := W9_arg m c _ (by decide)
theorem W9_main_arg8 (c : Dev nD) : W9 m c main_arg8 = m ((c.tc : Thread nD τ).loc main_arg8) := W9_arg m c _ (by decide)
theorem W9_main_arg9 (c : Dev nD) : W9 m c main_arg9 = m ((c.tc : Thread nD τ).loc main_arg9) := W9_arg m c _ (by decide)
theorem W9_main_arg10 (c : Dev nD) : W9 m c main_arg10 = m ((c.tc : Thread nD τ).loc main_arg10) := W9_arg m c _ (by decide)
theorem W9_main_arg11 (c : Dev nD) : W9 m c main_arg11 = m ((c.tc : Thread nD τ).loc main_arg11) := W9_arg m c _ (by decide)
theorem W9_main_arg12 (c : Dev nD) : W9 m c main_arg12 = m ((c.tc : Thread nD τ).loc main_arg12) := W9_arg m c _ (by decide)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    have g {b : Ref sig .tc} {x} (hb : ¬ (Proc.devRef .tc b : DevRef τ sig).isScoped) (e : W9 m c b = x) :
        r.2.mem ((c.tc : Thread nD τ).loc b) = x := (h c _ (mem_uc b hb)).trans e
    ⟨g (by decide) (W9_main_arg0 m c),
     g (by decide) (W9_main_arg1 m c),
     g (by decide) (W9_main_arg2 m c),
     g (by decide) (W9_main_arg3 m c),
     g (by decide) (W9_main_arg4 m c),
     g (by decide) (W9_main_arg5 m c),
     g (by decide) (W9_main_arg6 m c),
     g (by decide) (W9_main_arg7 m c),
     g (by decide) (W9_main_arg8 m c),
     g (by decide) (W9_main_arg9 m c),
     g (by decide) (W9_main_arg10 m c),
     g (by decide) (W9_main_arg11 m c),
     g (by decide) (W9_main_arg12 m c)⟩) (run_all m ρ)

end Cert.KernelIdeal.Hand

end
-- ==== Proof.KernelTail.lean ====
import proofs.«159937_j69277822484503_1_alg».proof.KernelIdeal
import proofs.«159937_j69277822484503_1_alg».proof.Proof.Gen.KernelIdeal
import Idealize.ShloMosaic.PureOps.Ideal

noncomputable section

namespace Cert.KernelIdeal.Hand

open Idealize.ShloMosaic Cert.KernelIdeal Cert.KernelIdeal.Gen

-- Row-wise log-softmax: the row maximum is subtracted, then the logarithm of the row sum of the exponentials.
def tailK (z : FVec Ideal S8192x64 .f32) : FVec Ideal S8192x64 .f32 :=
  let v0 := Host.reduce FloatOps.maximumf z (constant (F := Ideal) S_ .f32 0xFF800000#32) reducesTo_S8192x64_S8192_d1 h_S_
  let v1 := broadcastInDim S8192 ![] bcast_S_S8192 (constant (F := Ideal) S_ .f32 0xFF800000#32)
  let v2 := maximumf v1 v0
  let v3 := broadcastInDim S8192x1 ![0] bcast_S8192_S8192x1_0 v2
  let v4 := broadcastInDim S8192x64 ![0, 1] bcast_S8192x1_S8192x64_0_1 v3
  let v5 := subf z v4
  let v6 := Host.exp v5
  let v7 := Host.reduceAdd v6 (constant (F := Ideal) S_ .f32 0x00000000#32) reducesTo_S8192x64_S8192_d1 h_S_
  let v8 := broadcastInDim S8192x1 ![0] bcast_S8192_S8192x1_0 v7
  let v9 := Host.log v8
  let v10 := broadcastInDim S8192x64 ![0, 1] bcast_S8192x1_S8192x64_0_1 v9
  subf v5 v10

end Cert.KernelIdeal.Hand

end
-- ==== Proof.Spec.lean ====
import Mathlib.Data.EReal.Operations
import Mathlib.Algebra.BigOperators.Group.Finset.Basic
import Mathlib.Algebra.BigOperators.Ring.Finset

open scoped BigOperators

noncomputable section

namespace Cert.GcnSpec

def IsReal (x : EReal) : Prop := ∃ r : ℝ, x = (r : EReal)

theorem IsReal.zero : IsReal 0 := ⟨0, rfl⟩
theorem IsReal.add {x y : EReal} : IsReal x → IsReal y → IsReal (x + y)
  | ⟨r, hr⟩, ⟨s, hs⟩ => ⟨r + s, by rw [hr, hs, EReal.coe_add]⟩
theorem IsReal.mul {x y : EReal} : IsReal x → IsReal y → IsReal (x * y)
  | ⟨r, hr⟩, ⟨s, hs⟩ => ⟨r * s, by rw [hr, hs, EReal.coe_mul]⟩
theorem IsReal.max {x y : EReal} (hx : IsReal x) (hy : IsReal y) : IsReal (max x y) := by
  rcases max_choice x y with h | h <;> rw [h] <;> assumption
theorem IsReal.sum {ι : Type} (s : Finset ι) (f : ι → EReal) (h : ∀ i ∈ s, IsReal (f i)) : IsReal (∑ i ∈ s, f i) :=
  Finset.sum_induction f IsReal (fun _ _ => IsReal.add) IsReal.zero h

theorem coe_sum {ι : Type} (s : Finset ι) (f : ι → ℝ) : ((∑ i ∈ s, f i : ℝ) : EReal) = ∑ i ∈ s, (f i : EReal) :=
  map_sum (⟨⟨(↑), EReal.coe_zero⟩, EReal.coe_add⟩ : ℝ →+ EReal) f s

theorem coe_ite_zero (p : Prop) [Decidable p] (r : ℝ) :
    ((if p then r else 0 : ℝ) : EReal) = if p then (r : EReal) else 0 :=
  apply_ite _ p r 0

section Layer

variable {n : Type} [Fintype n] [DecidableEq n] {d : Type}

def selfLoop (a : n → n → EReal) (w : n → EReal) (i j : n) : EReal := a i j + if i = j then w i else 0

def lap (a : n → n → EReal) (w u v e : n → EReal) (i j : n) : EReal :=
  (u i * selfLoop a w i j) * v j + if i = j then e i else 0

def applyLap (L : n → n → EReal) (M : n → d → EReal) (i : n) (c : d) : EReal := ∑ j, L i j * M j c

def fusedArr (a : n → n → EReal) (P : n → d → EReal) (u g : n → EReal) (M : n → d → EReal) (i : n) (c : d) : EReal :=
  u i * (∑ j, a i j * P j c) + g i * M i c

def fused (a : n → n → EReal) (v u g : n → EReal) (M : n → d → EReal) (i : n) (c : d) : EReal :=
  fusedArr a (fun j c => v j * M j c) u g M i c

def diagMul (w u v t s : n → EReal) (i : n) : EReal := ((u i * w i) * v i + t i) + s i

-- distributivity over a finite sum: it holds because every entry is a real number
theorem applyLap_eq_fused (a : n → n → EReal) (w u v t s : n → EReal) (M : n → d → EReal)
    (ha : ∀ i j, IsReal (a i j)) (hw : ∀ i, IsReal (w i)) (hu : ∀ i, IsReal (u i)) (hv : ∀ i, IsReal (v i))
    (ht : ∀ i, IsReal (t i)) (hs : ∀ i, IsReal (s i)) (hM : ∀ i c, IsReal (M i c)) :
    applyLap (lap a w u v (fun i => t i + s i)) M = fused a v u (diagMul w u v t s) M := by
  funext i c
  choose a' ha' using ha
  choose w' hw' using hw
  choose u' hu' using hu
  choose v' hv' using hv
  choose t' ht' using ht
  choose s' hs' using hs
  choose M' hM' using hM
  simp only [applyLap, lap, selfLoop, fused, fusedArr, diagMul, ha', hw', hu', hv', ht', hs', hM',
    ← EReal.coe_add, ← EReal.coe_mul, ← coe_ite_zero, ← coe_sum]
  refine congrArg _ ?_
  simp only [add_mul, mul_add, ite_mul, mul_ite, zero_mul, mul_zero, Finset.sum_add_distrib, Finset.sum_ite_eq,
    Finset.mem_univ, if_true, Finset.mul_sum, mul_assoc]
  ring

end Layer

section Network

variable {n : Type} [Fintype n] [DecidableEq n] {f : Type} [Fintype f] {h : Type} [Fintype h] {o : Type}

def mm {α β γ : Type} [Fintype β] (A : α → β → EReal) (B : β → γ → EReal) (i : α) (c : γ) : EReal := ∑ l, A i l * B l c

variable (pw : EReal → EReal → EReal)
variable (x : n → f → EReal) (a : n → n → EReal) (W0 : f → h → EReal) (b0 : h → EReal) (W1 : h → o → EReal) (b1 : o → EReal)
variable (p q r c1 c2 c3 : EReal) (w : n → EReal)

def degK (i : n) : EReal := (∑ j, a i j) + w i
def degR (i : n) : EReal := (0 : EReal) + ∑ j, selfLoop a w i j

def logitsOfK (dg : n → EReal) (i : n) (c : o) : EReal :=
  let dr : n → EReal := fun i => pw (dg i) r
  let u : n → EReal := fun i => c2 * pw (dg i) q
  let g : n → EReal := diagMul w u dr (fun i => c1 * pw (dg i) p) (fun _ => c3)
  let M1 : n → h → EReal := mm x W0
  let A1 : n → h → EReal := fun i c => max (fused a dr u g M1 i c + b0 c) 0
  let M2 : n → o → EReal := mm A1 W1
  fused a dr u g M2 i c + b1 c

def logitsOfR (dg : n → EReal) (i : n) (c : o) : EReal :=
  let L : n → n → EReal := lap a w (fun i => c2 * pw (dg i) q) (fun i => pw (dg i) r) (fun i => c1 * pw (dg i) p + c3)
  let M1 : n → h → EReal := mm x W0
  let A1 : n → h → EReal := fun i c => max (applyLap L M1 i c + b0 c) 0
  let M2 : n → o → EReal := mm A1 W1
  applyLap L M2 i c + b1 c

-- the two degree vectors agree and are real, so the layer identity applies to each layer in turn
theorem logits_eq (hpw : ∀ s e, IsReal s → IsReal e → IsReal (pw s e))
    (hx : ∀ i k, IsReal (x i k)) (ha : ∀ i j, IsReal (a i j)) (hW0 : ∀ k c, IsReal (W0 k c)) (hb0 : ∀ c, IsReal (b0 c))
    (hW1 : ∀ k c, IsReal (W1 k c)) (hb1 : ∀ c, IsReal (b1 c)) (hp : IsReal p) (hq : IsReal q) (hr : IsReal r)
    (hc1 : IsReal c1) (hc2 : IsReal c2) (hc3 : IsReal c3) (hw : ∀ i, IsReal (w i)) (i : n) (c : o) :
    logitsOfK pw x a W0 b0 W1 b1 p q r c1 c2 c3 w (degK a w) i c
      = logitsOfR pw x a W0 b0 W1 b1 p q r c1 c2 c3 w (degR a w) i c := by
  have hdeg : degR a w = degK a w := funext fun i => by
    simp only [degR, degK, selfLoop, zero_add, Finset.sum_add_distrib, Finset.sum_ite_eq, Finset.mem_univ, if_true]
  rw [hdeg]
  have hdg : ∀ i, IsReal (degK a w i) := fun i => (IsReal.sum _ _ fun j _ => ha i j).add (hw i)
  generalize degK a w = dg at hdg ⊢
  have hdr : ∀ i, IsReal (pw (dg i) r) := fun i => hpw _ _ (hdg i) hr
  have hu : ∀ i, IsReal (c2 * pw (dg i) q) := fun i => hc2.mul (hpw _ _ (hdg i) hq)
  have ht : ∀ i, IsReal (c1 * pw (dg i) p) := fun i => hc1.mul (hpw _ _ (hdg i) hp)
  have hM1 : ∀ i c, IsReal (mm x W0 i c) := fun i c => IsReal.sum _ _ fun l _ => (hx i l).mul (hW0 l c)
  have layer := fun {d : Type} (M : n → d → EReal) =>
    applyLap_eq_fused a w _ _ _ (fun _ => c3) M ha hw hu hdr ht (fun _ => hc3)
  simp only [logitsOfK, logitsOfR]
  rw [layer _ hM1, layer]
  exact fun i c => IsReal.sum _ _ fun l _ => (((((hu i).mul (IsReal.sum _ _ fun j _ => (ha i j).mul ((hdr j).mul (hM1 j l)))).add
    ((((((hu i).mul (hw i)).mul (hdr i)).add (ht i)).add hc3).mul (hM1 i l))).add (hb0 l)).max IsReal.zero).mul (hW1 l c)

end Network

end Cert.GcnSpec

end
-- ==== Proof.SpecAt.lean ====
import proofs.«159937_j69277822484503_1_alg».proof.Proof.Spec
import Idealize.ShloMosaic.PureOps.Ideal
import Idealize.ShloMosaic.Lib.ValueIdx

noncomputable section

namespace Cert.GcnAt

open Idealize.ShloMosaic Idealize.ShloMosaic.ValueIdx Cert.GcnSpec

abbrev A2 (a b : Nat) : Type := (⟨2, ![a, b]⟩ : Shape).Idx → EReal
abbrev A1 (a : Nat) : Type := (⟨1, ![a]⟩ : Shape).Idx → EReal

def m2 {a b : Nat} (x : A2 a b) : Fin a → Fin b → EReal := fun i j => x (ix2 i j)
def m1 {a : Nat} (x : A1 a) : Fin a → EReal := fun i => x (ix1 i)
def s1 (x : A1 1) : EReal := x (ix1 0)
def col {a : Nat} (x : A2 a 1) : Fin a → EReal := fun i => x (ix2 i 0)

theorem pow_isReal (s e : EReal) (hs : IsReal s) (he : IsReal e) : IsReal (Ideal.pow s e) := by
  obtain ⟨y, rfl⟩ := hs
  obtain ⟨z, rfl⟩ := he
  exact ⟨Real.rpow y z, rfl⟩

variable (x : A2 8192 256) (adj : A2 8192 8192) (W0 : A2 256 128) (b0 : A1 128) (W1 : A2 128 64) (b1 : A1 64)
  (p q r c1 c2 c3 : A1 1) (d1 : A1 8192)

def logitsK : A2 8192 64 := fun idx =>
  logitsOfK Ideal.pow (m2 x) (m2 adj) (m2 W0) (m1 b0) (m2 W1) (m1 b1) (s1 p) (s1 q) (s1 r) (s1 c1) (s1 c2) (s1 c3) (m1 d1)
    (degK (m2 adj) (m1 d1)) (idx 0) (idx 1)

def logitsR : A2 8192 64 := fun idx =>
  logitsOfR Ideal.pow (m2 x) (m2 adj) (m2 W0) (m1 b0) (m2 W1) (m1 b1) (s1 p) (s1 q) (s1 r) (s1 c1) (s1 c2) (s1 c3) (m1 d1)
    (degR (m2 adj) (m1 d1)) (idx 0) (idx 1)

theorem logits_eq_at (hx : ∀ i, IsReal (x i)) (hadj : ∀ i, IsReal (adj i)) (hW0 : ∀ i, IsReal (W0 i)) (hb0 : ∀ i, IsReal (b0 i))
    (hW1 : ∀ i, IsReal (W1 i)) (hb1 : ∀ i, IsReal (b1 i)) (hp : ∀ i, IsReal (p i)) (hq : ∀ i, IsReal (q i)) (hr : ∀ i, IsReal (r i))
    (hc1 : ∀ i, IsReal (c1 i)) (hc2 : ∀ i, IsReal (c2 i)) (hc3 : ∀ i, IsReal (c3 i)) (hd1 : ∀ i, IsReal (d1 i)) :
    logitsK x adj W0 b0 W1 b1 p q r c1 c2 c3 d1 = logitsR x adj W0 b0 W1 b1 p q r c1 c2 c3 d1 := by
  funext idx
  exact logits_eq _ _ _ _ _ _ _ _ _ _ _ _ _ _ pow_isReal (fun _ _ => hx _) (fun _ _ => hadj _) (fun _ _ => hW0 _)
    (fun _ => hb0 _) (fun _ _ => hW1 _) (fun _ => hb1 _) (hp _) (hq _) (hr _) (hc1 _) (hc2 _) (hc3 _) (fun _ => hd1 _) _ _

end Cert.GcnAt

end
-- ==== Proof.KernelHost2.lean ====
import proofs.«159937_j69277822484503_1_alg».proof.Proof.Run
import proofs.«159937_j69277822484503_1_alg».proof.Proof.KernelTail
import proofs.«159937_j69277822484503_1_alg».proof.Proof.SpecAt
import Idealize.ShloMosaic.Lib.StableHlo.Run
import Idealize.ShloMosaic.PureOps.Ideal.Laws
import Idealize.ShloMosaic.Lib.Pipeline.Value

noncomputable section

namespace Cert.KernelIdeal.Hand

open Idealize.ShloMosaic Idealize.ShloMosaic.TcCoe Idealize.ShloMosaic.ValueIdx Cert.KernelIdeal Cert.KernelIdeal.Gen Cert.GcnAt Cert.GcnSpec

variable (m : (ℓ : Loc nD τ sig) → Buf (Elt Ideal) ℓ)

theorem bcast_col64_at (y : FVec Ideal S8192x1 .f32) (i : Fin 8192) (k : Fin 64) :
    broadcastInDim S8192x64 ![0, 1] bcast_S8192x1_S8192x64_0_1 y (ix2 i k) = y (ix2 i 0) :=
  broadcastInDim_apply _ bcast_S8192x1_S8192x64_0_1 y (ix2 i k) (ix2 i 0) fun a => match a with
    | ⟨0, _⟩ => rfl
    | ⟨1, _⟩ => rfl

-- Serves both layers' bias vectors: the width is a parameter.
theorem bias_at {n : Nat} (hn : n ≠ 1) (h1 : (⟨2, ![1, n]⟩ : Shape).BroadcastsInDim ⟨2, ![8192, n]⟩ (![0, 1] : Fin 2 → Fin 2))
    (h2 : (⟨1, ![n]⟩ : Shape).BroadcastsInDim ⟨2, ![1, n]⟩ (![1] : Fin 1 → Fin 2)) (x : FVec Ideal ⟨1, ![n]⟩ .f32) (i : Fin 8192) (k : Fin n) :
    broadcastInDim ⟨2, ![8192, n]⟩ ![0, 1] h1 (broadcastInDim ⟨2, ![1, n]⟩ ![1] h2 x) (ix2 i k) = x (ix1 k) :=
  (broadcastInDim_apply _ h1 _ (ix2 i k) (ix2 0 k) fun a => match a with
    | ⟨0, _⟩ => rfl
    | ⟨1, _⟩ => (if_neg hn).symm).trans
  (broadcastInDim_apply _ h2 x (ix2 0 k) (ix1 k) fun a => match a with
    | ⟨0, _⟩ => (if_neg hn).symm)

theorem zero128_at (i : Fin 8192) (k : Fin 128) :
    broadcastInDim S8192x128 ![] bcast_S_S8192x128 (constant (F := Ideal) S_ .f32 0x00000000#32) (ix2 i k) = (0 : EReal) :=
  (broadcastInDim_apply _ bcast_S_S8192x128 _ (ix2 i k) (fun a => a.elim0) fun a => a.elim0).trans Ideal.ofBits_zero_f32

section Stretch
variable (V : Valuation τ sig (Elt Ideal))

theorem ops2_v35 : @Eq (FVec Ideal S8192x128 .f32) (StableHlo.after hostOps2 V main_v35)
    (addf (F := Ideal) (V main_v32) (broadcastInDim S8192x128 ![0, 1] bcast_S1x128_S8192x128_0_1
      (broadcastInDim S1x128 ![1] bcast_S128_S1x128_1 (V main_arg3)))) := by
  after_results

theorem ops2_1_v36 : @Eq (FVec Ideal S8192x128 .f32) (StableHlo.after hostOps2_1 V main_v36)
    (maximumf (F := Ideal) (V main_v35)
      (broadcastInDim S8192x128 ![] bcast_S_S8192x128 (constant (F := Ideal) S_ .f32 0x00000000#32))) := by
  after_results
  simp only [StableHlo.TRef.ofBuf, StableHlo.TRef.toBuf, cast_eq]

theorem ops2_2_v37 : @Eq (FVec Ideal S8192x64 .f32) (StableHlo.after hostOps2_2 V main_v37)
    (Host.dotGeneral (F := Ideal) (φ₁ := .f32) (φ₂ := .f32) dot_S8192x128_S128x64_S8192x64_1_0_0_1_n_n none (V main_v36) (V main_arg4)) := by
  after_results

theorem ops2_2_v40 : @Eq (FVec Ideal S8192x64 .bf16) (StableHlo.after hostOps2_2 V main_v40)
    (truncf .bf16 (mulf (F := Ideal) (broadcastInDim S8192x64 ![0, 1] bcast_S8192x1_S8192x64_0_1 (V main_v11))
      (Host.dotGeneral (F := Ideal) (φ₁ := .f32) (φ₂ := .f32) dot_S8192x128_S128x64_S8192x64_1_0_0_1_n_n none (V main_v36) (V main_arg4))) bitsLt_bf16_f32) := by
  after_results

theorem ops3_v44 : @Eq (FVec Ideal S8192x64 .f32) (StableHlo.after hostOps3 V main_v44)
    (addf (F := Ideal) (V main_v41) (broadcastInDim S8192x64 ![0, 1] bcast_S1x64_S8192x64_0_1
      (broadcastInDim S1x64 ![1] bcast_S64_S1x64_1 (V main_arg5)))) := by
  after_results

theorem ops3_1_v45 : @Eq (FVec Ideal S8192x64 .f32) (StableHlo.after hostOps3_1 V main_v45)
    (tailK (V main_v44)) := by
  after_results
  simp only [StableHlo.TRef.ofBuf, StableHlo.TRef.toBuf, cast_eq]
  rfl

end Stretch

theorem W3_in (c : Dev nD) (w : Fin cfg1.W) (hin : (cfg1.win w).isOut = false) :
    W3 m c (Pipeline.arrRef spec1 w)
      = W2 m c (Pipeline.arrRef spec1 w) :=
  (W3_arr m c w).trans (((dat1 (V2 m) c).arrAt_in w hin _).trans (A_eq1 (V2 m) c w))

theorem W5_of (c : Dev nD) (b : Ref sig .tc) (h5 : b ∉ hostOps2_1_W) (h4 : b ∉ hostOps2_W) :
    W5 m c b = W3 m c b :=
  (StableHlo.after_of_writes_sub hostOps2_1 _ hostOps2_1_writes h5).trans (StableHlo.after_of_writes_sub hostOps2 _ hostOps2_writes h4)

theorem W6_of (c : Dev nD) (b : Ref sig .tc) (h6 : b ∉ hostOps2_2_W) (h5 : b ∉ hostOps2_1_W) (h4 : b ∉ hostOps2_W) :
    W6 m c b = W3 m c b :=
  (StableHlo.after_of_writes_sub hostOps2_2 _ hostOps2_2_writes h6).trans (W5_of m c b h5 h4)

theorem W3_arg (c : Dev nD) (b : Ref sig .tc) (h3 : ∀ w, Pipeline.arrRef spec1 w ≠ b) (h2 : b ∉ hostOps1_W)
    (h1 : ∀ w, Pipeline.arrRef spec0 w ≠ b) : W3 m c b = m ((c.tc : Thread nD τ).loc b) :=
  (W3_of_ne m c b h3).trans ((StableHlo.after_of_writes_sub hostOps1 _ hostOps1_writes h2).trans (W1_of_ne m c b h1))

theorem W5_v36_at (c : Dev nD) (i : Fin 8192) (q : Fin 128) :
    m2 (W5 m c main_v36) i q
      = max (m2 (W3 m c main_v32) i q + m1 (m ((c.tc : Thread nD τ).loc main_arg3)) q) 0 := by
  unfold m2 m1 W5 W4
  rw [ops2_1_v36, maximumf_apply, zero128_at, ops2_v35, addf_apply, bias_at (n := 128) (by decide),
    W3_arg m c main_arg3 (by decide) (by decide) (by decide)]

theorem W6_v40 (c : Dev nD) (i : Fin 8192) (k : Fin 64) :
    m2 (W6 m c main_v40) i k = col (W2 m c main_v11) i * m2 (W6 m c main_v37) i k := by
  unfold m2 col W6
  rw [ops2_2_v40, ops2_2_v37, truncf_apply, mulf_apply, bcast_col64_at,
    (W5_of m c main_v11 (by decide) (by decide)).trans (W3_of_ne m c main_v11 (by decide))]

theorem W6_v14 (c : Dev nD) : W6 m c main_v14 = W2 m c main_v14 :=
  (W6_of m c main_v14 (by decide) (by decide) (by decide)).trans (W3_in m c 3 rfl)
theorem W6_v27 (c : Dev nD) : W6 m c main_v27 = W2 m c main_v27 :=
  (W6_of m c main_v27 (by decide) (by decide) (by decide)).trans (W3_in m c 4 rfl)
theorem W2_v0_0 (c : Dev nD) : W2 m c main_v0_0 = W1 m c main_v0_0 :=
  StableHlo.after_of_writes_sub hostOps1 _ hostOps1_writes (by decide)
theorem W6_v0_0 (c : Dev nD) : W6 m c main_v0_0 = W1 m c main_v0_0 :=
  ((W6_of m c main_v0_0 (by decide) (by decide) (by decide)).trans (W3_in m c 0 rfl)).trans (W2_v0_0 m c)

theorem W8_v44 (c : Dev nD) (i : Fin 8192) (k : Fin 64) :
    m2 (W8 m c main_v44) i k = m2 (W7 m c main_v41) i k + m1 (m ((c.tc : Thread nD τ).loc main_arg5)) k := by
  unfold m2 m1 W8
  rw [ops3_v44, addf_apply, bias_at (n := 64) (by decide), (W7_of_ne m c main_arg5 (by decide)).trans
    ((W6_of m c main_arg5 (by decide) (by decide) (by decide)).trans (W3_arg m c main_arg5 (by decide) (by decide) (by decide)))]

theorem W9_v45 (c : Dev nD) : W9 m c main_v45 = tailK (W8 m c main_v44) :=
  ops3_1_v45 (W8 m c)

end Cert.KernelIdeal.Hand

end
-- ==== Proof.Value0.lean ====
import proofs.«159937_j69277822484503_1_alg».proof.Proof.Region0
import proofs.«159937_j69277822484503_1_alg».proof.Proof.SpecAt
import Idealize.ShloMosaic.PureOps.Ideal.Laws
import Idealize.ShloMosaic.Lib.Pipeline.Value

noncomputable section

namespace Cert.KernelIdeal.Hand

open Idealize.ShloMosaic
open TcCoe ValueIdx Gen GcnAt GcnSpec

theorem pay1_apply0 (i : S1024x1.Idx) : k0_pay1 (F := Ideal) i = 0 := by
  unfold k0_pay1
  simp only [shapeCast_self]
  exact Ideal.ofBits_zero_f32

-- Each row's running sum gains the row's sum over the block's 2048 columns.
theorem pay3_apply0 (x : Vec Ideal S1024x2048 .f32) (acc : Vec Ideal S1024x1 .f32) (r : Fin 1024) (u : Fin 1) :
    k0_pay3 x acc (ix2 r u) = acc (ix2 r u) + ∑ l : Fin 2048, x (ix2 r l) := by
  unfold k0_pay3
  simp only [shapeCast_self]
  refine congrArg (acc (ix2 r u) + ·) ((shapeCast_apply _ _ (ix2 r u) (ix1 r) (by
    rw [Shape.rowMajor_val_two, Shape.rowMajor_val_one]
    show r.val = r.val * 1 + u.val
    omega)).trans ((Ideal.multiReduction_add_single x _ _ _ _ (ix1 r)).trans ?_))
  exact Finset.sum_congr rfl fun l _ => congrArg x (funext fun a => match a with
    | ⟨0, _⟩ => Fin.ext rfl
    | ⟨1, _⟩ => Fin.ext rfl)

-- Two indices with equal coordinates name one entry.
theorem rd0 {A B : ℕ} (f : A2 A B) (x : (⟨2, ![A, B]⟩ : Shape).Idx) (i : Fin A) (j : Fin B)
    (h0 : (x 0).val = i.val) (h1 : (x 1).val = j.val) : f x = m2 f i j :=
  congrArg f (funext fun a => Fin.ext (match a with | ⟨0, _⟩ => h0 | ⟨1, _⟩ => h1))

variable (V : (c : Dev nD) → (b : Ref sig .tc) → Buf (Elt Ideal) ((c : Thread nD τ).loc b))

-- At point t = 4a + k the input and the copy sit at block (a, k), the row sums at block (a, 0).
theorem idx_facts0 : ∀ t : Fin cfg0.N, win0_0.index t 0 = t.val / 4 ∧ win0_0.index t 1 = t.val % 4
    ∧ win0_2.index t 0 = t.val / 4 ∧ win0_2.index t 1 = 0 :=
  (by decide +kernel : ∀ t : Fin grid0.N, _)

-- Every entry of the copy is in the block of the point of its row block and column block.
theorem cover1 (i : S8192x8192.Idx) : ∃ t : Fin cfg0.N, (cfg0.win 1).flush t = true ∧ i ∈ ((cfg0.win 1).blk t).view.set := by
  have hi0 := idx2_lt0 i
  have hi1 := idx2_lt1 i
  have hN : cfg0.N = 32 := N_0
  obtain ⟨t, ht⟩ : ∃ t : Fin cfg0.N, t.val = 4 * ((i 0).val / 1024) + (i 1).val / 2048 := ⟨⟨_, by omega⟩, rfl⟩
  obtain ⟨e2, e3, -⟩ := idx_facts0 t
  refine ⟨t, flush0_1 t, ?_⟩
  show i ∈ ((View.whole main_v0_0).slice (win0_1.rect t)).set
  rw [View.set_slice_whole, Rect.mem_set_unit]
  intro a
  match a with
  | ⟨0, _⟩ => show win0_0.index t 0 * 1024 ≤ (i 0).val ∧ (i 0).val < win0_0.index t 0 * 1024 + 1024; omega
  | ⟨1, _⟩ => show win0_0.index t 1 * 2048 ≤ (i 1).val ∧ (i 1).val < win0_0.index t 1 * 2048 + 2048; omega

-- Every point copies its block of the adjacency to the same block of the copy.
theorem arr0_copy (c : Dev nD) (i j : Fin 8192) :
    m2 ((dat0 (F := Ideal) V c).arrAt 1 cfg0.N) i j = m2 (V c main_arg1) i j := by
  refine congrFun ((dat0 V c).arrAt_eq_of_cover 1 (fun i => V c main_arg1 i) (fun t _ => ?_) cover1) (ix2 i j)
  exact congrArg ((cfg0.win 1).cut (grid0.coords t)) (outsAt0_bf V c t)

-- The sum of row i of the adjacency over column block k.
def rsum0 (c : Dev nD) (i : Fin 8192) (k : Fin 4) : EReal := ∑ l : Fin 2048, m2 (V c main_arg1) i (finProdFinEquiv (k, l))

-- Point t = 4a + k adds, at row r, the sum of row 1024·a + r over column block k.
theorem step0 (c : Dev nD) (t : Fin cfg0.N) (a : Fin 8) (k : Fin 4) (ha : t.val / 4 = a.val) (hk : t.val % 4 = k.val) (r : Fin 1024)
    (X : Vec Ideal S1024x1 .f32) :
    k0_pay3 (iblk0 V c 0 t) X (ix2 r 0) = X (ix2 r 0) + rsum0 V c (finProdFinEquiv (a, r)) k := by
  obtain ⟨e0, e1, -⟩ := idx_facts0 t
  refine (pay3_apply0 _ X r 0).trans (congrArg (X (ix2 r 0) + ·) (Finset.sum_congr rfl fun l _ => rd0 (V c main_arg1) _ _ _ ?_ ?_))
  · show win0_0.index t 0 * 1024 + 1 * r.val = r.val + 1024 * a.val; omega
  · show win0_0.index t 1 * 2048 + 1 * l.val = l.val + 2048 * k.val; omega

-- The running sum after point 4a + k is the row's sums over column blocks 0 … k, by induction on k.
theorem acc_eq0 (c : Dev nD) (a : Fin 8) (r : Fin 1024) : ∀ (k : ℕ) (hk : k < 4) (t : Fin cfg0.N) (e : t.val = 4 * a.val + k),
    (outsAt0 V c t.val t.isLt).2.2 (ix2 r 0) = ∑ kk : Fin (k + 1), rsum0 V c (finProdFinEquiv (a, r)) (Fin.castLE (by omega) kk)
  | 0, hk, t, e => by
    refine (congrFun (outsAt0_acc_first V c t (by omega)) (ix2 r 0)).trans
      ((step0 V c t a 0 (by omega) (by omega) r _).trans ?_)
    rw [pay1_apply0, zero_add, Fin.sum_univ_one]
    rfl
  | k + 1, hk, t, e => by
    refine (congrFun (outsAt0_acc_next V c t (by omega)) (ix2 r 0)).trans
      ((step0 V c t a ⟨k + 1, hk⟩ (by omega) (by dsimp only; omega) r _).trans ?_)
    rw [Fin.sum_univ_castSucc]
    exact congrArg₂ (· + ·) (acc_eq0 c a r k (by omega) ⟨t.val - 1, by omega⟩ (by dsimp only; omega)) rfl

-- Every row is in the block of the last point of its row block.
theorem cover2 (i : S8192x1.Idx) : ∃ t : Fin cfg0.N, (cfg0.win 2).flush t = true ∧ i ∈ ((cfg0.win 2).blk t).view.set := by
  have hi0 := idx2_lt0 i
  have hi1 := idx2_lt1 i
  have hN : cfg0.N = 32 := N_0
  obtain ⟨t, ht⟩ : ∃ t : Fin cfg0.N, t.val = 4 * ((i 0).val / 1024) + 3 := ⟨⟨_, by omega⟩, rfl⟩
  obtain ⟨-, -, e4, e5⟩ := idx_facts0 t
  refine ⟨t, (flush0_2 t).mpr (by omega), ?_⟩
  show i ∈ ((View.whole main_v0_1).slice (win0_2.rect t)).set
  rw [View.set_slice_whole, Rect.mem_set_unit]
  intro a
  match a with
  | ⟨0, _⟩ => show win0_2.index t 0 * 1024 ≤ (i 0).val ∧ (i 0).val < win0_2.index t 0 * 1024 + 1024; omega
  | ⟨1, _⟩ => show win0_2.index t 1 * 1 ≤ (i 1).val ∧ (i 1).val < win0_2.index t 1 * 1 + 1; omega

-- After the last point of a row block the column holds the four column blocks' sums, joined into the sum over all 8192 columns.
theorem arr0_rowsum (c : Dev nD) (i : Fin 8192) :
    col ((dat0 (F := Ideal) V c).arrAt 2 cfg0.N) i = ∑ j : Fin 8192, m2 (V c main_arg1) i j := by
  refine congrFun ((dat0 V c).arrAt_eq_of_cover 2 (fun (i : S8192x1.Idx) => (∑ j : Fin 8192, m2 (V c main_arg1) (i 0) j : EReal))
    (fun t hf => ?_) cover2) (ix2 i 0)
  have h3 : t.val % 4 = 3 := (flush0_2 t).mp hf
  have ht : t.val < 32 := lt_of_lt_of_eq t.isLt N_0
  obtain ⟨a, ha⟩ : ∃ a : Fin 8, t.val / 4 = a.val := ⟨⟨t.val / 4, by omega⟩, rfl⟩
  obtain ⟨-, -, e4, e5⟩ := idx_facts0 t
  funext y
  obtain ⟨r, u, rfl⟩ : ∃ (r : Fin 1024) (u : Fin 1), y = ix2 r u := ⟨y 0, y 1, eq_ix2 y⟩
  obtain rfl : u = 0 := Subsingleton.elim _ _
  refine ((congrFun (outsAt0_out_last V c t h3) _).trans (acc_eq0 V c a r 3 (by omega) t (by omega))).trans ?_
  show _ = ∑ j : Fin 8192, m2 (V c main_arg1) ((((cfg0.win 2).blk t).view.emb (ix2 r 0)) 0) j
  rw [← Equiv.sum_comp (finProdFinEquiv : Fin 4 × Fin 2048 ≃ Fin 8192), Fintype.sum_prod_type]
  refine Finset.sum_congr rfl fun kk _ => Finset.sum_congr rfl fun l _ => congrArg (m2 (V c main_arg1) · _) (Fin.ext ?_)
  show r.val + 1024 * a.val = win0_2.index t 0 * 1024 + 1 * r.val
  omega

end Cert.KernelIdeal.Hand

end
-- ==== Proof.Pay1.lean ====
import proofs.«159937_j69277822484503_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Idealize.ShloMosaic
open ValueIdx Gen

theorem k1_pay1_apply (r : Fin 2048) (c : Fin 128) : k1_pay1 (F := Ideal) (ix2 r c) = 0 := by
  unfold k1_pay1
  rw [shapeCast_self]
  exact Ideal.ofBits_zero_f32

-- Output entry (r, c) and contraction coordinate k name the operand entries (r, k) and (k, c).
theorem k1_pay2_apply (acc : Vec Ideal S2048x128 .f32) (A : Vec Ideal S2048x2048 .bf16) (P : Vec Ideal S2048x128 .bf16) (r : Fin 2048) (c : Fin 128) :
    k1_pay2 acc A P (ix2 r c) = acc (ix2 r c) + ∑ jj : Fin 2048, A (ix2 r jj) * P (ix2 jj c) := by
  unfold k1_pay2
  simp only [shapeCast_self, matmul]
  show acc (ix2 r c) + _ = _
  rw [Ideal.matmul_constant_zero_apply, ← Equiv.sum_comp (contrEquiv1 dot_S2048x2048_S2048x128_S2048x128_1_0_0_1_n_n 2048 rfl rfl).symm]
  refine congrArg (acc (ix2 r c) + ·) (Finset.sum_congr rfl fun k _ => ?_)
  have hk := contrEquiv1_symm_val dot_S2048x2048_S2048x128_S2048x128_1_0_0_1_n_n 2048 rfl rfl k
  refine congrArg₂ (· * ·) (congrArg A (funext fun a => Fin.ext ?_)) (congrArg P (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

-- A column spread along the rows reads, at (r, c), the column's entry of row r.
theorem Pay1.spread_apply (v : Vec Ideal S2048x1 .f32) (r : Fin 2048) (c : Fin 128) :
    broadcastTo S2048x128 v broadcasts_S2048x1_S2048x128 (ix2 r c) = v (ix2 r 0) :=
  broadcastTo_apply v _ (ix2 r c) (ix2 r 0) fun ax => match ax with
    | ⟨0, _⟩ => rfl
    | ⟨1, _⟩ => rfl

theorem k1_pay3_apply (u : Vec Ideal S2048x1 .f32) (acc : Vec Ideal S2048x128 .f32) (g : Vec Ideal S2048x1 .f32) (M : Vec Ideal S2048x128 .f32) (r : Fin 2048) (c : Fin 128) :
    k1_pay3 u acc g M (ix2 r c) = u (ix2 r 0) * acc (ix2 r c) + g (ix2 r 0) * M (ix2 r c) := by
  unfold k1_pay3
  simp only [shapeCast_self]
  exact congrArg₂ (· * acc (ix2 r c) + · * M (ix2 r c)) (Pay1.spread_apply u r c) (Pay1.spread_apply g r c)

end Cert.KernelIdeal.Hand

end
-- ==== Proof.Value1.lean ====
import proofs.«159937_j69277822484503_1_alg».proof.Proof.Region1
import proofs.«159937_j69277822484503_1_alg».proof.Proof.Pay1
import proofs.«159937_j69277822484503_1_alg».proof.Proof.SpecAt
import Idealize.ShloMosaic.Lib.Pipeline.Value

noncomputable section

namespace Cert.KernelIdeal.Hand

open Idealize.ShloMosaic
open TcCoe ValueIdx Gen GcnAt GcnSpec

variable (V : (c : Dev nD) → (b : Ref sig .tc) → Buf (Elt Ideal) ((c : Thread nD τ).loc b))

-- Row 2048·a + r of 8192 rows cut into four blocks of 2048.
def Value1.bidx (a : Fin 4) (r : Fin 2048) : Fin 8192 := finProdFinEquiv (a, r)

-- Point t = 4a + k reads the adjacency at block (a, k), the pre-scaled features at (k, 0); the other four arrays share one block index, (a, 0).
theorem Value1.idx : ∀ t : Fin cfg1.N,
    win1_0.index t 0 = t.val / 4 ∧ win1_0.index t 1 = t.val % 4
    ∧ win1_1.index t 0 = t.val % 4 ∧ win1_1.index t 1 = 0
    ∧ win1_5.index t 0 = t.val / 4 ∧ win1_5.index t 1 = 0 :=
  (by decide +kernel : ∀ t : Fin grid1.N, _)

-- Two indices with equal coordinates name one entry.
theorem Value1.rd {A B : ℕ} (f : A2 A B) (x : (⟨2, ![A, B]⟩ : Shape).Idx) (i : Fin A) (j : Fin B)
    (h0 : (x 0).val = i.val) (h1 : (x 1).val = j.val) : f x = m2 f i j :=
  congrArg f (funext fun a => Fin.ext (match a with | ⟨0, _⟩ => h0 | ⟨1, _⟩ => h1))

def Value1.bsum (c : Dev nD) (i : Fin 8192) (cc : Fin 128) (kk : Fin 4) : EReal :=
  ∑ jj : Fin 2048, m2 (V c main_v0_0) i (Value1.bidx kk jj) * m2 (V c main_v31) (Value1.bidx kk jj) cc

-- Point t = 4a + kk adds, at (r, cc), row 2048·a + r against column cc over column block kk.
theorem Value1.step (c : Dev nD) (t : Fin cfg1.N) (a kk : Fin 4) (ha : t.val / 4 = a.val) (hk : t.val % 4 = kk.val)
    (r : Fin 2048) (cc : Fin 128) (X : Vec Ideal S2048x128 .f32) :
    k1_pay2 X (iblk1 V c 0 t) (iblk1 V c 1 t) (ix2 r cc) = X (ix2 r cc) + Value1.bsum V c (Value1.bidx a r) cc kk := by
  obtain ⟨e0, e1, e2, e3, -⟩ := Value1.idx t
  refine (k1_pay2_apply X _ _ r cc).trans (congrArg (X (ix2 r cc) + ·) (Finset.sum_congr rfl fun jj _ =>
    congrArg₂ (· * ·) (Value1.rd (V c main_v0_0) _ _ _ ?_ ?_) (Value1.rd (V c main_v31) _ _ _ ?_ ?_)))
  · show win1_0.index t 0 * 2048 + 1 * r.val = r.val + 2048 * a.val; omega
  · show win1_0.index t 1 * 2048 + 1 * jj.val = jj.val + 2048 * kk.val; omega
  · show win1_1.index t 0 * 2048 + 1 * jj.val = jj.val + 2048 * kk.val; omega
  · show win1_1.index t 1 * 128 + 1 * cc.val = cc.val; omega

-- The running sum after point 4a + k is the block products 0 … k of row 2048·a + r, by induction on k.
theorem Value1.acc_eq (c : Dev nD) (a : Fin 4) (r : Fin 2048) (cc : Fin 128) : ∀ (k : ℕ) (hk : k < 4) (t : Fin cfg1.N) (e : t.val = 4 * a.val + k),
    (outsAt1 V c t.val t.isLt).2 (ix2 r cc) = ∑ kk : Fin (k + 1), Value1.bsum V c (Value1.bidx a r) cc (Fin.castLE (by omega) kk)
  | 0, hk, t, e => by
    refine (congrFun (outsAt1_acc_first V c t (by omega)) (ix2 r cc)).trans
      ((Value1.step V c t a 0 (by omega) (by omega) r cc _).trans ?_)
    rw [k1_pay1_apply, zero_add, Fin.sum_univ_one]
    rfl
  | k + 1, hk, t, e => by
    refine (congrFun (outsAt1_acc_next V c t (by omega)) (ix2 r cc)).trans
      ((Value1.step V c t a ⟨k + 1, hk⟩ (by omega) (by dsimp only; omega) r cc _).trans ?_)
    rw [Fin.sum_univ_castSucc]
    exact congrArg₂ (· + ·) (Value1.acc_eq c a r cc k (by omega) ⟨t.val - 1, by omega⟩ (by dsimp only; omega)) rfl

def Value1.G (c : Dev nD) : S8192x128.Idx → EReal := fun idx =>
  fusedArr (m2 (V c main_v0_0)) (m2 (V c main_v31)) (col (V c main_v14)) (col (V c main_v27)) (m2 (V c main_v28)) (idx 0) (idx 1)

-- Every index of the output array is in the block of the last point of its row block.
theorem Value1.cover (i : S8192x128.Idx) : ∃ t : Fin cfg1.N, (cfg1.win 5).flush t = true ∧ i ∈ ((cfg1.win 5).blk t).view.set := by
  have hN : cfg1.N = 16 := N_1
  have h0 := idx2_lt0 i
  have h1 := idx2_lt1 i
  obtain ⟨t, ht⟩ : ∃ t : Fin cfg1.N, t.val = 4 * ((i 0).val / 2048) + 3 := ⟨⟨_, by omega⟩, rfl⟩
  obtain ⟨-, -, -, -, e0, e1⟩ := Value1.idx t
  refine ⟨t, (flush1_5 t).mpr (by omega), ?_⟩
  show i ∈ ((View.whole main_v32).slice (win1_5.rect t)).set
  rw [View.set_slice_whole, Rect.mem_set_unit]
  intro a
  match a with
  | ⟨0, _⟩ => show win1_5.index t 0 * 2048 ≤ (i 0).val ∧ (i 0).val < win1_5.index t 0 * 2048 + 2048; omega
  | ⟨1, _⟩ => show win1_5.index t 1 * 128 ≤ (i 1).val ∧ (i 1).val < win1_5.index t 1 * 128 + 128; omega

-- After the last point of row block a its output block is u · (the four block products, joined into the sum over all 8192 columns) + g · M.
theorem arr1_out (c : Dev nD) (i : Fin 8192) (k : Fin 128) :
    m2 ((dat1 (F := Ideal) V c).arrAt 5 cfg1.N) i k
      = fusedArr (m2 (V c main_v0_0)) (m2 (V c main_v31)) (col (V c main_v14)) (col (V c main_v27)) (m2 (V c main_v28)) i k := by
  refine congrFun ((dat1 V c).arrAt_eq_of_cover 5 (Value1.G V c) (fun t hf => ?_) Value1.cover) (ix2 i k)
  have h3 : t.val % 4 = 3 := (flush1_5 t).mp hf
  have ht : t.val < 16 := lt_of_lt_of_eq t.isLt N_1
  obtain ⟨a, ha⟩ : ∃ a : Fin 4, t.val / 4 = a.val := ⟨⟨t.val / 4, by omega⟩, rfl⟩
  obtain ⟨-, -, -, -, e0, e1⟩ := Value1.idx t
  funext y
  obtain ⟨r, cc, rfl⟩ : ∃ (r : Fin 2048) (cc : Fin 128), y = ix2 r cc := ⟨y 0, y 1, eq_ix2 y⟩
  have hr : win1_5.index t 0 * 2048 + 1 * r.val = r.val + 2048 * a.val := by omega
  have hc : win1_5.index t 1 * 128 + 1 * cc.val = cc.val := by omega
  have hu : win1_5.index t 1 * 1 + 1 * 0 = 0 := by omega
  refine ((congrFun (outsAt1_out_last V c t h3) (ix2 r cc)).trans ((k1_pay3_apply _ _ _ _ r cc).trans ?_)).trans
    (Value1.rd (Value1.G V c) _ (Value1.bidx a r) cc hr hc).symm
  rw [Value1.acc_eq V c a r cc 3 (by omega) t (by omega)]
  unfold m2 Value1.G fusedArr
  rw [← Equiv.sum_comp (finProdFinEquiv : Fin 4 × Fin 2048 ≃ Fin 8192), Fintype.sum_prod_type]
  exact congrArg₂ (· + ·) (congrArg₂ (· * ·) (Value1.rd (V c main_v14) _ _ 0 hr hu) rfl)
    (congrArg₂ (· * ·) (Value1.rd (V c main_v27) _ _ 0 hr hu) (Value1.rd (V c main_v28) _ _ _ hr hc))

end Cert.KernelIdeal.Hand

end
-- ==== Proof.Pay2.lean ====
import proofs.«159937_j69277822484503_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Idealize.ShloMosaic
open ValueIdx Gen

theorem k2_pay1_apply (r : Fin 2048) (c : Fin 64) : k2_pay1 (F := Ideal) (ix2 r c) = 0 := by
  unfold k2_pay1
  rw [shapeCast_self]
  exact Ideal.ofBits_zero_f32

-- Output entry (r, c) and contraction coordinate k name the operand entries (r, k) and (k, c).
theorem k2_pay2_apply (acc : Vec Ideal S2048x64 .f32) (A : Vec Ideal S2048x2048 .bf16) (P : Vec Ideal S2048x64 .bf16) (r : Fin 2048) (c : Fin 64) :
    k2_pay2 acc A P (ix2 r c) = acc (ix2 r c) + ∑ jj : Fin 2048, A (ix2 r jj) * P (ix2 jj c) := by
  unfold k2_pay2
  simp only [shapeCast_self, matmul]
  show acc (ix2 r c) + _ = _
  rw [Ideal.matmul_constant_zero_apply, ← Equiv.sum_comp (contrEquiv1 dot_S2048x2048_S2048x64_S2048x64_1_0_0_1_n_n 2048 rfl rfl).symm]
  refine congrArg (acc (ix2 r c) + ·) (Finset.sum_congr rfl fun k _ => ?_)
  have hk := contrEquiv1_symm_val dot_S2048x2048_S2048x64_S2048x64_1_0_0_1_n_n 2048 rfl rfl k
  refine congrArg₂ (· * ·) (congrArg A (funext fun a => Fin.ext ?_)) (congrArg P (funext fun a => Fin.ext ?_))
  · match a with
    | ⟨0, _⟩ => rfl
    | ⟨1, _⟩ => exact (DotDims.lhsIdx_val_of_single _ rfl _ _).trans hk
  · match a with
    | ⟨0, _⟩ => exact (DotDims.rhsIdx_val_of_single _ rfl _ _).trans hk
    | ⟨1, _⟩ => rfl

-- A column spread along the rows reads, at (r, c), the column's entry of row r.
theorem Pay2.spread_apply (v : Vec Ideal S2048x1 .f32) (r : Fin 2048) (c : Fin 64) :
    broadcastTo S2048x64 v broadcasts_S2048x1_S2048x64 (ix2 r c) = v (ix2 r 0) :=
  broadcastTo_apply v _ (ix2 r c) (ix2 r 0) fun ax => match ax with
    | ⟨0, _⟩ => rfl
    | ⟨1, _⟩ => rfl

theorem k2_pay3_apply (u : Vec Ideal S2048x1 .f32) (acc : Vec Ideal S2048x64 .f32) (g : Vec Ideal S2048x1 .f32) (M : Vec Ideal S2048x64 .f32) (r : Fin 2048) (c : Fin 64) :
    k2_pay3 u acc g M (ix2 r c) = u (ix2 r 0) * acc (ix2 r c) + g (ix2 r 0) * M (ix2 r c) := by
  unfold k2_pay3
  simp only [shapeCast_self]
  exact congrArg₂ (· * acc (ix2 r c) + · * M (ix2 r c)) (Pay2.spread_apply u r c) (Pay2.spread_apply g r c)

end Cert.KernelIdeal.Hand

end
-- ==== Proof.Value2.lean ====
import proofs.«159937_j69277822484503_1_alg».proof.Proof.Region2
import proofs.«159937_j69277822484503_1_alg».proof.Proof.Pay2
import proofs.«159937_j69277822484503_1_alg».proof.Proof.SpecAt
import Idealize.ShloMosaic.Lib.Pipeline.Value

noncomputable section

namespace Cert.KernelIdeal.Hand

open Idealize.ShloMosaic
open TcCoe ValueIdx Gen GcnAt GcnSpec

variable (V : (c : Dev nD) → (b : Ref sig .tc) → Buf (Elt Ideal) ((c : Thread nD τ).loc b))

-- Row 2048·a + r of 8192 rows cut into four blocks of 2048.
def Value2.bidx (a : Fin 4) (r : Fin 2048) : Fin 8192 := finProdFinEquiv (a, r)

-- Point t = 4a + k reads the adjacency at block (a, k), the pre-scaled features at (k, 0); the other four arrays share one block index, (a, 0).
theorem Value2.idx : ∀ t : Fin cfg2.N,
    win2_0.index t 0 = t.val / 4 ∧ win2_0.index t 1 = t.val % 4
    ∧ win2_1.index t 0 = t.val % 4 ∧ win2_1.index t 1 = 0
    ∧ win2_5.index t 0 = t.val / 4 ∧ win2_5.index t 1 = 0 :=
  (by decide +kernel : ∀ t : Fin grid2.N, _)

-- Two indices with equal coordinates name one entry.
theorem Value2.rd {A B : ℕ} (f : A2 A B) (x : (⟨2, ![A, B]⟩ : Shape).Idx) (i : Fin A) (j : Fin B)
    (h0 : (x 0).val = i.val) (h1 : (x 1).val = j.val) : f x = m2 f i j :=
  congrArg f (funext fun a => Fin.ext (match a with | ⟨0, _⟩ => h0 | ⟨1, _⟩ => h1))

def Value2.bsum (c : Dev nD) (i : Fin 8192) (cc : Fin 64) (kk : Fin 4) : EReal :=
  ∑ jj : Fin 2048, m2 (V c main_v0_0) i (Value2.bidx kk jj) * m2 (V c main_v40) (Value2.bidx kk jj) cc

-- Point t = 4a + kk adds, at (r, cc), row 2048·a + r against column cc over column block kk.
theorem Value2.step (c : Dev nD) (t : Fin cfg2.N) (a kk : Fin 4) (ha : t.val / 4 = a.val) (hk : t.val % 4 = kk.val)
    (r : Fin 2048) (cc : Fin 64) (X : Vec Ideal S2048x64 .f32) :
    k2_pay2 X (iblk2 V c 0 t) (iblk2 V c 1 t) (ix2 r cc) = X (ix2 r cc) + Value2.bsum V c (Value2.bidx a r) cc kk := by
  obtain ⟨e0, e1, e2, e3, -⟩ := Value2.idx t
  refine (k2_pay2_apply X _ _ r cc).trans (congrArg (X (ix2 r cc) + ·) (Finset.sum_congr rfl fun jj _ =>
    congrArg₂ (· * ·) (Value2.rd (V c main_v0_0) _ _ _ ?_ ?_) (Value2.rd (V c main_v40) _ _ _ ?_ ?_)))
  · show win2_0.index t 0 * 2048 + 1 * r.val = r.val + 2048 * a.val; omega
  · show win2_0.index t 1 * 2048 + 1 * jj.val = jj.val + 2048 * kk.val; omega
  · show win2_1.index t 0 * 2048 + 1 * jj.val = jj.val + 2048 * kk.val; omega
  · show win2_1.index t 1 * 64 + 1 * cc.val = cc.val; omega

-- The running sum after point 4a + k is the block products 0 … k of row 2048·a + r, by induction on k.
theorem Value2.acc_eq (c : Dev nD) (a : Fin 4) (r : Fin 2048) (cc : Fin 64) : ∀ (k : ℕ) (hk : k < 4) (t : Fin cfg2.N) (e : t.val = 4 * a.val + k),
    (outsAt2 V c t.val t.isLt).2 (ix2 r cc) = ∑ kk : Fin (k + 1), Value2.bsum V c (Value2.bidx a r) cc (Fin.castLE (by omega) kk)
  | 0, hk, t, e => by
    refine (congrFun (outsAt2_acc_first V c t (by omega)) (ix2 r cc)).trans
      ((Value2.step V c t a 0 (by omega) (by omega) r cc _).trans ?_)
    rw [k2_pay1_apply, zero_add, Fin.sum_univ_one]
    rfl
  | k + 1, hk, t, e => by
    refine (congrFun (outsAt2_acc_next V c t (by omega)) (ix2 r cc)).trans
      ((Value2.step V c t a ⟨k + 1, hk⟩ (by omega) (by dsimp only; omega) r cc _).trans ?_)
    rw [Fin.sum_univ_castSucc]
    exact congrArg₂ (· + ·) (Value2.acc_eq c a r cc k (by omega) ⟨t.val - 1, by omega⟩ (by dsimp only; omega)) rfl

def Value2.G (c : Dev nD) : S8192x64.Idx → EReal := fun idx =>
  fusedArr (m2 (V c main_v0_0)) (m2 (V c main_v40)) (col (V c main_v14)) (col (V c main_v27)) (m2 (V c main_v37)) (idx 0) (idx 1)

-- Every index of the output array is in the block of the last point of its row block.
theorem Value2.cover (i : S8192x64.Idx) : ∃ t : Fin cfg2.N, (cfg2.win 5).flush t = true ∧ i ∈ ((cfg2.win 5).blk t).view.set := by
  have hN : cfg2.N = 16 := N_2
  have h0 := idx2_lt0 i
  have h1 := idx2_lt1 i
  obtain ⟨t, ht⟩ : ∃ t : Fin cfg2.N, t.val = 4 * ((i 0).val / 2048) + 3 := ⟨⟨_, by omega⟩, rfl⟩
  obtain ⟨-, -, -, -, e0, e1⟩ := Value2.idx t
  refine ⟨t, (flush2_5 t).mpr (by omega), ?_⟩
  show i ∈ ((View.whole main_v41).slice (win2_5.rect t)).set
  rw [View.set_slice_whole, Rect.mem_set_unit]
  intro a
  match a with
  | ⟨0, _⟩ => show win2_5.index t 0 * 2048 ≤ (i 0).val ∧ (i 0).val < win2_5.index t 0 * 2048 + 2048; omega
  | ⟨1, _⟩ => show win2_5.index t 1 * 64 ≤ (i 1).val ∧ (i 1).val < win2_5.index t 1 * 64 + 64; omega

-- After the last point of row block a its output block is u · (the four block products, joined into the sum over all 8192 columns) + g · M.
theorem arr2_out (c : Dev nD) (i : Fin 8192) (k : Fin 64) :
    m2 ((dat2 (F := Ideal) V c).arrAt 5 cfg2.N) i k
      = fusedArr (m2 (V c main_v0_0)) (m2 (V c main_v40)) (col (V c main_v14)) (col (V c main_v27)) (m2 (V c main_v37)) i k := by
  refine congrFun ((dat2 V c).arrAt_eq_of_cover 5 (Value2.G V c) (fun t hf => ?_) Value2.cover) (ix2 i k)
  have h3 : t.val % 4 = 3 := (flush2_5 t).mp hf
  have ht : t.val < 16 := lt_of_lt_of_eq t.isLt N_2
  obtain ⟨a, ha⟩ : ∃ a : Fin 4, t.val / 4 = a.val := ⟨⟨t.val / 4, by omega⟩, rfl⟩
  obtain ⟨-, -, -, -, e0, e1⟩ := Value2.idx t
  funext y
  obtain ⟨r, cc, rfl⟩ : ∃ (r : Fin 2048) (cc : Fin 64), y = ix2 r cc := ⟨y 0, y 1, eq_ix2 y⟩
  have hr : win2_5.index t 0 * 2048 + 1 * r.val = r.val + 2048 * a.val := by omega
  have hc : win2_5.index t 1 * 64 + 1 * cc.val = cc.val := by omega
  have hu : win2_5.index t 1 * 1 + 1 * 0 = 0 := by omega
  refine ((congrFun (outsAt2_out_last V c t h3) (ix2 r cc)).trans ((k2_pay3_apply _ _ _ _ r cc).trans ?_)).trans
    (Value2.rd (Value2.G V c) _ (Value2.bidx a r) cc hr hc).symm
  rw [Value2.acc_eq V c a r cc 3 (by omega) t (by omega)]
  unfold m2 Value2.G fusedArr
  rw [← Equiv.sum_comp (finProdFinEquiv : Fin 4 × Fin 2048 ≃ Fin 8192), Fintype.sum_prod_type]
  exact congrArg₂ (· + ·) (congrArg₂ (· * ·) (Value2.rd (V c main_v14) _ _ 0 hr hu) rfl)
    (congrArg₂ (· * ·) (Value2.rd (V c main_v27) _ _ 0 hr hu) (Value2.rd (V c main_v37) _ _ _ hr hc))

end Cert.KernelIdeal.Hand

end
-- ==== Proof.KernelValue.lean ====
import proofs.«159937_j69277822484503_1_alg».proof.Proof.Run
import proofs.«159937_j69277822484503_1_alg».proof.Proof.KernelHost2
import proofs.«159937_j69277822484503_1_alg».proof.Proof.Value0
import proofs.«159937_j69277822484503_1_alg».proof.Proof.Value1
import proofs.«159937_j69277822484503_1_alg».proof.Proof.Value2
import proofs.«159937_j69277822484503_1_alg».proof.Proof.SpecAt
import Idealize.ShloMosaic.Lib.StableHlo.Run
import Idealize.ShloMosaic.PureOps.Ideal.Laws
import Idealize.ShloMosaic.Lib.Pipeline.Value

noncomputable section

namespace Cert.KernelIdeal.Hand

open Idealize.ShloMosaic Idealize.ShloMosaic.TcCoe Idealize.ShloMosaic.ValueIdx Cert.KernelIdeal Cert.KernelIdeal.Gen Cert.GcnAt Cert.GcnSpec

variable (m : (ℓ : Loc nD τ sig) → Buf (Elt Ideal) ℓ)

namespace KV

section
variable (rs dg : FVec Ideal S8192x1 .f32) (d1 : FVec Ideal S8192 .f32) (e p q r c1 c2 c3 : FVec Ideal S1 .f32)
  (i : Fin 8192) (j : S8192x1.Idx)

abbrev scal : FVec Ideal S_ .f32 := fun i => shapeCast S_ e shapeCasts_S1_S_ i
abbrev bS : FVec Ideal S8192x1 .f32 := broadcastInDim S8192x1 ![] bcast_S_S8192x1 (scal e)
abbrev bC : FVec Ideal S8192x1 .f32 := broadcastInDim S8192x1 ![0] bcast_S8192_S8192x1_0 d1

theorem bS_apply : bS e j = s1 e :=
  (broadcastInDim_apply _ bcast_S_S8192x1 (scal e) j ix0 fun a => a.elim0).trans
    (shapeCast_apply e shapeCasts_S1_S_ ix0 (ix1 0) (by decide))

theorem bC_apply : bC d1 (ix2 i 0) = m1 d1 i :=
  broadcastInDim_apply _ bcast_S8192_S8192x1_0 d1 (ix2 i 0) (ix1 i) fun a => match a with
    | ⟨0, _⟩ => rfl

abbrev dgV : FVec Ideal S8192x1 .f32 := addf rs (bC d1)
abbrev pwV : FVec Ideal S8192x1 .f32 := Host.powf dg (bS e)
abbrev uV : FVec Ideal S8192x1 .f32 := mulf (bS c2) (pwV dg q)
abbrev gV : FVec Ideal S8192x1 .f32 :=
  addf (addf (mulf (mulf (uV dg q c2) (bC d1)) (pwV dg r)) (mulf (bS c1) (pwV dg p))) (bS c3)

theorem dgV_apply : dgV rs d1 (ix2 i 0) = col rs i + m1 d1 i := by
  show rs (ix2 i 0) + bC d1 (ix2 i 0) = _
  rw [bC_apply]; rfl
theorem pwV_apply : pwV dg e j = Ideal.pow (dg j) (s1 e) := by
  show Ideal.pow (dg j) (bS e j) = _
  rw [bS_apply]
theorem uV_apply : uV dg q c2 j = s1 c2 * Ideal.pow (dg j) (s1 q) := by
  show bS c2 j * pwV dg q j = _
  rw [bS_apply, pwV_apply]
theorem gV_apply : gV dg d1 p q r c1 c2 c3 (ix2 i 0)
    = ((s1 c2 * Ideal.pow (dg (ix2 i 0)) (s1 q)) * m1 d1 i) * Ideal.pow (dg (ix2 i 0)) (s1 r) + s1 c1 * Ideal.pow (dg (ix2 i 0)) (s1 p) + s1 c3 := by
  show ((uV dg q c2 (ix2 i 0) * bC d1 (ix2 i 0)) * pwV dg r (ix2 i 0) + bS c1 (ix2 i 0) * pwV dg p (ix2 i 0)) + bS c3 (ix2 i 0) = _
  rw [uV_apply, bC_apply, pwV_apply, pwV_apply, bS_apply, bS_apply]

end

-- Serves both matrix products of the network: the three extents are parameters.
theorem plain_at {M K N : Nat} (l : FVec Ideal ⟨2, ![M, K]⟩ .f32) (r : FVec Ideal ⟨2, ![K, N]⟩ .f32) (i : Fin M) (k : Fin N) :
    Host.dotGeneral (F := Ideal) (DotDims.plain M K N) none l r (ix2 i k) = ∑ q : Fin K, l (ix2 i q) * r (ix2 q k) := by
  simp only [Host.dotGeneral]
  rw [Ideal.dotGeneral_apply, ← Equiv.sum_comp (contrEquiv1 (DotDims.plain M K N) K rfl rfl).symm]
  refine Finset.sum_congr rfl fun q _ => ?_
  have hq := contrEquiv1_symm_val (DotDims.plain M K N) K rfl rfl q
  rw [show (DotDims.plain M K N).lhsIdx (ix2 i k) ((contrEquiv1 (DotDims.plain M K N) K rfl rfl).symm q) = ix2 i q from
      funext fun a => Fin.ext (match a with | ⟨0, _⟩ => rfl | ⟨1, _⟩ => hq),
    show (DotDims.plain M K N).rhsIdx (ix2 i k) ((contrEquiv1 (DotDims.plain M K N) K rfl rfl).symm q) = ix2 q k from
      funext fun a => Fin.ext (match a with | ⟨0, _⟩ => hq | ⟨1, _⟩ => rfl)]

abbrev dotAV (x0 : FVec Ideal S8192x256 .f32) (x2 : FVec Ideal S256x128 .f32) : FVec Ideal S8192x128 .f32 :=
  Host.dotGeneral dot_S8192x256_S256x128_S8192x128_1_0_0_1_n_n none x0 x2
abbrev bW128 (x : FVec Ideal S8192x1 .f32) : FVec Ideal S8192x128 .f32 := broadcastInDim S8192x128 ![0, 1] bcast_S8192x1_S8192x128_0_1 x

theorem dotAV_apply (x0 : FVec Ideal S8192x256 .f32) (x2 : FVec Ideal S256x128 .f32) (i : Fin 8192) (k : Fin 128) :
    dotAV x0 x2 (ix2 i k) = mm (m2 x0) (m2 x2) i k := plain_at x0 x2 i k
theorem bW128_apply (x : FVec Ideal S8192x1 .f32) (i : Fin 8192) (k : Fin 128) : bW128 x (ix2 i k) = col x i :=
  broadcastInDim_apply _ bcast_S8192x1_S8192x128_0_1 x (ix2 i k) (ix2 i 0) fun a => match a with
    | ⟨0, _⟩ => rfl
    | ⟨1, _⟩ => rfl

abbrev dg1 (c : Dev nD) : FVec Ideal S8192x1 .f32 := dgV (W1 m c main_v0_1) (W1 m c main_arg12)

theorem dg1_apply (c : Dev nD) (i : Fin 8192) :
    dg1 m c (ix2 i 0) = degK (m2 (m ((c.tc : Thread nD τ).loc main_arg1))) (m1 (m ((c.tc : Thread nD τ).loc main_arg12))) i := by
  show dgV (W1 m c main_v0_1) (W1 m c main_arg12) (ix2 i 0) = _
  rw [dgV_apply, show W1 m c main_v0_1 = (dat0 (V0 m) c).arrAt 2 cfg0.N from W1_arr m c 2, arr0_rowsum, W1_of_ne m c main_arg12 (by decide)]
  rfl

theorem W2_v14_eq (c : Dev nD) : W2 m c main_v14 = uV (dg1 m c) (W1 m c main_arg7) (W1 m c main_arg10) := by
  unfold W2
  after_results_simp
  rfl

theorem W2_v11_eq (c : Dev nD) : W2 m c main_v11 = pwV (dg1 m c) (W1 m c main_arg8) := by
  unfold W2
  after_results_simp
  rfl

theorem W2_v27_eq (c : Dev nD) : W2 m c main_v27
    = gV (dg1 m c) (W1 m c main_arg12) (W1 m c main_arg6) (W1 m c main_arg7) (W1 m c main_arg8) (W1 m c main_arg9) (W1 m c main_arg10) (W1 m c main_arg11) := by
  unfold W2
  after_results_simp
  rfl

theorem W2_v28_eq (c : Dev nD) : W2 m c main_v28 = dotAV (W1 m c main_arg0) (W1 m c main_arg2) := by
  unfold W2
  after_results_simp <;> rfl

theorem W2_v31_eq (c : Dev nD) : W2 m c main_v31
    = truncf .bf16 (mulf (bW128 (pwV (dg1 m c) (W1 m c main_arg8))) (dotAV (W1 m c main_arg0) (W1 m c main_arg2))) bitsLt_bf16_f32 := by
  unfold W2
  after_results_simp
  rfl

abbrev aK (c : Dev nD) := m2 (m ((c.tc : Thread nD τ).loc main_arg1))
abbrev dK (c : Dev nD) := degK (aK m c) (m1 (m ((c.tc : Thread nD τ).loc main_arg12)))
abbrev drK (c : Dev nD) := fun i => Ideal.pow (dK m c i) (s1 (m ((c.tc : Thread nD τ).loc main_arg8)))
abbrev uK (c : Dev nD) := fun i => s1 (m ((c.tc : Thread nD τ).loc main_arg10)) * Ideal.pow (dK m c i) (s1 (m ((c.tc : Thread nD τ).loc main_arg7)))
abbrev gK (c : Dev nD) :=
  diagMul (m1 (m ((c.tc : Thread nD τ).loc main_arg12))) (uK m c) (drK m c)
    (fun i => s1 (m ((c.tc : Thread nD τ).loc main_arg9)) * Ideal.pow (dK m c i) (s1 (m ((c.tc : Thread nD τ).loc main_arg6))))
    (fun _ => s1 (m ((c.tc : Thread nD τ).loc main_arg11)))
abbrev M1K (c : Dev nD) := mm (m2 (m ((c.tc : Thread nD τ).loc main_arg0))) (m2 (m ((c.tc : Thread nD τ).loc main_arg2)))
abbrev L1K (c : Dev nD) := fused (aK m c) (drK m c) (uK m c) (gK m c) (M1K m c)
abbrev A1K (c : Dev nD) := fun i k => max (L1K m c i k + m1 (m ((c.tc : Thread nD τ).loc main_arg3)) k) 0
abbrev M2K (c : Dev nD) := mm (A1K m c) (m2 (m ((c.tc : Thread nD τ).loc main_arg4)))

theorem col_W2_v14 (c : Dev nD) : col (W2 m c main_v14) = uK m c := by
  funext i
  unfold col
  rw [W2_v14_eq, uV_apply, dg1_apply, W1_of_ne m c main_arg10 (by decide), W1_of_ne m c main_arg7 (by decide)]

theorem col_W2_v11 (c : Dev nD) : col (W2 m c main_v11) = drK m c := by
  funext i
  unfold col
  rw [W2_v11_eq, pwV_apply, dg1_apply, W1_of_ne m c main_arg8 (by decide)]

theorem col_W2_v27 (c : Dev nD) : col (W2 m c main_v27) = gK m c := by
  funext i
  unfold col
  rw [W2_v27_eq, gV_apply, dg1_apply, W1_of_ne m c main_arg12 (by decide), W1_of_ne m c main_arg6 (by decide), W1_of_ne m c main_arg7 (by decide), W1_of_ne m c main_arg8 (by decide),
    W1_of_ne m c main_arg9 (by decide), W1_of_ne m c main_arg10 (by decide), W1_of_ne m c main_arg11 (by decide)]
  rfl

theorem m2_W2_v28 (c : Dev nD) : m2 (W2 m c main_v28) = M1K m c := by
  funext i k
  unfold m2
  rw [W2_v28_eq, dotAV_apply, W1_of_ne m c main_arg0 (by decide), W1_of_ne m c main_arg2 (by decide)]

theorem m2_W2_v31 (c : Dev nD) : m2 (W2 m c main_v31) = fun j k => drK m c j * M1K m c j k := by
  funext i k
  unfold m2
  rw [W2_v31_eq, truncf_apply, mulf_apply, bW128_apply, dotAV_apply, W1_of_ne m c main_arg0 (by decide), W1_of_ne m c main_arg2 (by decide)]
  unfold col
  rw [pwV_apply, dg1_apply, W1_of_ne m c main_arg8 (by decide)]

theorem m2_W1_v0_0 (c : Dev nD) : m2 (W1 m c main_v0_0) = aK m c := by
  funext i j
  rw [show W1 m c main_v0_0 = (dat0 (V0 m) c).arrAt 1 cfg0.N from W1_arr m c 1]
  exact arr0_copy (V0 m) c i j

theorem m2_W3_v32 (c : Dev nD) : m2 (W3 m c main_v32) = L1K m c := by
  funext i k
  rw [show W3 m c main_v32 = (dat1 (V2 m) c).arrAt 5 cfg1.N from W3_arr m c 5, arr1_out (V2 m) c i k]
  unfold V2
  rw [W2_v0_0, m2_W1_v0_0, m2_W2_v31, col_W2_v14, col_W2_v27, m2_W2_v28]
  rfl

theorem m2_W6_v37 (c : Dev nD) : m2 (W6 m c main_v37) = M2K m c := by
  funext i k
  unfold m2 W6
  rw [ops2_2_v37]
  refine (plain_at _ _ i k).trans (Finset.sum_congr rfl fun q _ => ?_)
  rw [show W5 m c main_arg4 = m ((c.tc : Thread nD τ).loc main_arg4) from
    (StableHlo.after_of_writes_sub hostOps2_1 _ hostOps2_1_writes (by decide)).trans
      ((StableHlo.after_of_writes_sub hostOps2 _ hostOps2_writes (by decide)).trans (W3_arg m c main_arg4 (by decide) (by decide) (by decide)))]
  exact congrArg (· * _) ((W5_v36_at m c i q).trans (by rw [m2_W3_v32]))

theorem m2_W7_v41 (c : Dev nD) : m2 (W7 m c main_v41) = fused (aK m c) (drK m c) (uK m c) (gK m c) (M2K m c) := by
  funext i k
  rw [show W7 m c main_v41 = (dat2 (V6 m) c).arrAt 5 cfg2.N from W7_arr m c 5, arr2_out (V6 m) c i k]
  unfold V6
  have h40 : m2 (W6 m c main_v40) = fun j k => drK m c j * M2K m c j k := by
    funext j k
    rw [W6_v40, col_W2_v11, m2_W6_v37]
  rw [W6_v0_0, m2_W1_v0_0, h40, W6_v14, W6_v27, col_W2_v14, col_W2_v27, m2_W6_v37]
  rfl

end KV

open KV

theorem kernel_value (c : Dev nD) :
    W9 m c main_v45
      = tailK (logitsK (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12))) := by
  rw [W9_v45]
  refine congrArg tailK (funext fun idx => ?_)
  obtain ⟨i, k, rfl⟩ : ∃ (i : Fin 8192) (k : Fin 64), idx = ix2 i k := ⟨idx 0, idx 1, eq_ix2 idx⟩
  show m2 (W8 m c main_v44) i k = _
  rw [W8_v44, m2_W7_v41]
  rfl

end Cert.KernelIdeal.Hand

end
-- ==== Proof.LibGatherScatter.lean ====
import Idealize.ShloMosaic.PureOps.Ideal
import Idealize.ShloMosaic.PureOps.Ideal.Laws
import Idealize.ShloMosaic.Lib.ValueIdx

namespace Cert.LibGatherScatter

open Idealize.ShloMosaic

/-- An update lands at `i` exactly when, on every operand axis, window start plus window coordinate is `i`'s coordinate. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq, funext_iff]
    refine forall_congr' fun a => ?_
    have := h a
    rw [Fin.ext_iff]
    show (d.start j idx a + (d.window j a : ℤ)).toNat = (i a).val ↔ _
    omega
  · next h =>
    refine iff_of_false nofun fun hi => h fun a => ?_
    have := hi a
    have := (i a).isLt
    omega

end Cert.LibGatherScatter
-- ==== Proof.LibScatterDiag.lean ====
import proofs.«159937_j69277822484503_1_alg».proof.Proof.LibGatherScatter

open scoped BigOperators

namespace Cert.LibScatterDiag

open Idealize.ShloMosaic Idealize.ShloMosaic.ValueIdx
open Cert.LibGatherScatter

section
variable {N M n w : Nat} (d : ScatterDims ⟨2, ![N, M]⟩ ⟨2, ![n, 2]⟩ ⟨1, ![n]⟩)
  (huw : d.updateWindowDims = []) (hiw : d.insertedWindowDims = [0, 1])
  (hsd : d.scatterDimsToOperandDims = [0, 1]) (hivd : d.indexVectorDim = 1)
  (idx : IVec ⟨2, ![n, 2]⟩ w) (e : Fin n)
include huw hiw hsd hivd

/-- On each operand axis `a` update `e`'s window starts at entry `a` of index row `e`, read signed, and has no extent. -/
theorem scatter_pair_coords :
    ∀ a : Fin 2, d.start (ix1 e) idx a + (d.window (ix1 e) a : ℤ) = (idx (ix2 e a)).toInt := by
  obtain ⟨uw, iw, sd, ivd, wf⟩ := d
  simp only at huw hiw hsd hivd
  subst huw hiw hsd hivd
  refine Fin.forall_fin_two.2 ⟨?_, ?_⟩
  all_goals
    refine (Int.add_zero _).trans ?_
    unfold ScatterDims.start
    first
    | rw [dif_pos (List.mem_cons.2 (Or.inl rfl))]
    | rw [dif_pos (List.mem_cons.2 (Or.inr (List.mem_singleton.2 rfl)))]
    congr 2
    funext b
    match b with
    | ⟨0, _⟩ => rfl
    | ⟨1, _⟩ => rfl

/-- Update `e` lands at `(i, j)` exactly when index row `e`, read signed and not clamped, is `(i, j)`. -/
theorem scatter_pair_resultIdx_iff (i : Fin N) (j : Fin M) :
    d.resultIdx? (ix1 e) idx = some (ix2 i j)
      ↔ (idx (ix2 e 0)).toInt = (i.val : ℤ) ∧ (idx (ix2 e 1)).toInt = (j.val : ℤ) := by
  rw [resultIdx?_eq_some_iff]
  simp only [scatter_pair_coords d huw hiw hsd hivd idx e]
  exact Fin.forall_fin_two

end

/-- When index row `e` is `(e, e)` for every `e`, only update `i` can land at `(i, j)`, and only if `i = j`: the scatter adds the updates to the diagonal. -/
theorem scatterAdd_diag_apply {N w : Nat} {φ : FTy}
    (d : ScatterDims ⟨2, ![N, N]⟩ ⟨2, ![N, 2]⟩ ⟨1, ![N]⟩)
    (huw : d.updateWindowDims = []) (hiw : d.insertedWindowDims = [0, 1])
    (hsd : d.scatterDimsToOperandDims = [0, 1]) (hivd : d.indexVectorDim = 1)
    (x : FVec Ideal ⟨2, ![N, N]⟩ φ) (idx : IVec ⟨2, ![N, 2]⟩ w) (upd : FVec Ideal ⟨1, ![N]⟩ φ)
    (hrows : ∀ e : Fin N, (idx (ix2 e 0)).toInt = (e.val : ℤ) ∧ (idx (ix2 e 1)).toInt = (e.val : ℤ))
    (i j : Fin N) :
    Host.scatterAdd (F := Ideal) d x idx upd (ix2 i j) = x (ix2 i j) + if i = j then upd (ix1 i) else 0 := by
  have hp : ∀ e : Fin N, d.resultIdx? (ix1 e) idx = some (ix2 i j) ↔ e = i ∧ e = j := fun e => by
    rw [scatter_pair_resultIdx_iff d huw hiw hsd hivd idx e i j, (hrows e).1, (hrows e).2, Fin.ext_iff, Fin.ext_iff]
    omega
  unfold Host.scatterAdd
  rw [Ideal.hostScatterAdd_def]
  unfold Ideal.hostScatterAdd
  congr 1
  rw [Finset.sum_filter]
  refine (Fintype.sum_eq_single (ix1 i) ?_).trans (if_congr ((hp i).trans (and_iff_right rfl)) rfl rfl)
  intro k hk
  refine if_neg fun h => hk ?_
  rw [eq_ix1 k] at h ⊢
  exact congrArg ix1 ((hp (k 0)).1 h).1

end Cert.LibScatterDiag
-- ==== Proof.RefValue.lean ====
import proofs.«159937_j69277822484503_1_alg».proof.Proof.RefReadGen
import proofs.«159937_j69277822484503_1_alg».proof.Proof.SpecAt
import proofs.«159937_j69277822484503_1_alg».proof.Proof.LibScatterDiag
import Idealize.ShloMosaic.Lib.StableHlo.Predicate

open scoped BigOperators

noncomputable section

namespace Cert.RefValue

open Idealize.ShloMosaic Idealize.ShloMosaic.ValueIdx Cert.ReferenceIdeal Cert.ReferenceIdeal.Gen Cert.ReferenceIdeal.ReadP
open Cert.GcnSpec Cert.GcnAt Cert.LibScatterDiag

def lsmTail (z : FVec Ideal S8192x64 .f32) : FVec Ideal S8192x64 .f32 :=
  let cst : FVec Ideal S_ .f32 := constant S_ .f32 0xFF800000#32
  let v0 : FVec Ideal S8192 .f32 := Host.reduce FloatOps.maximumf z cst reducesTo_S8192x64_S8192_d1 h_S_
  let cst_0 : FVec Ideal S_ .f32 := constant S_ .f32 0xFF800000#32
  let v1 : FVec Ideal S8192 .f32 := broadcastInDim S8192 ![] bcast_S_S8192 cst_0
  let v2 : FVec Ideal S8192 .f32 := maximumf v1 v0
  let v3 : FVec Ideal S8192x1 .f32 := broadcastInDim S8192x1 ![0] bcast_S8192_S8192x1_0 v2
  let v4 : FVec Ideal S8192x64 .f32 := broadcastInDim S8192x64 ![0, 1] bcast_S8192x1_S8192x64_0_1 v3
  let v5 : FVec Ideal S8192x64 .f32 := subf z v4
  let v6 : FVec Ideal S8192x64 .f32 := Host.exp v5
  let cst_1 : FVec Ideal S_ .f32 := constant S_ .f32 0x00000000#32
  let v7 : FVec Ideal S8192 .f32 := Host.reduceAdd v6 cst_1 reducesTo_S8192x64_S8192_d1 h_S_
  let v8 : FVec Ideal S8192x1 .f32 := broadcastInDim S8192x1 ![0] bcast_S8192_S8192x1_0 v7
  let v9 : FVec Ideal S8192x1 .f32 := Host.log v8
  let v10 : FVec Ideal S8192x64 .f32 := broadcastInDim S8192x64 ![0, 1] bcast_S8192x1_S8192x64_0_1 v9
  subf v5 v10

theorem ix2_of_vals {n0 n1 : Nat} (f : (⟨2, ![n0, n1]⟩ : Shape).Idx) (a : Fin n0) (b : Fin n1)
    (h0 : (f 0).val = a.val) (h1 : (f 1).val = b.val) : f = ix2 a b := by
  funext d
  match d with
  | ⟨0, _⟩ => exact Fin.ext h0
  | ⟨1, _⟩ => exact Fin.ext h1

theorem ix1_of_val {n : Nat} (f : (⟨1, ![n]⟩ : Shape).Idx) (a : Fin n) (h0 : (f 0).val = a.val) : f = ix1 a := by
  funext d
  match d with
  | ⟨0, _⟩ => exact Fin.ext h0

-- a position is not negative, so the wraparound of a negative index leaves it as it is
theorem wrap_toInt (e : Fin 8192) :
    (Scalar.select (IntOp.cmpi .slt (BitVec.ofNat 32 e.val) 0#32) (IntOp.addi (BitVec.ofNat 32 e.val) 8192#32)
      (BitVec.ofNat 32 e.val)).toInt = (e.val : ℤ) := by
  have h := StableHlo.Predicate.toInt_ofNat_small e.val (by omega)
  unfold Scalar.select
  rw [if_neg, h]
  intro hc
  have h1 := IntOp.cmpi_slt.1 hc
  rw [h] at h1
  have h0 : (0#32 : BitVec 32).toInt = 0 := by decide
  omega

-- in a shape with one element every index has row-major position zero
theorem reshape_at (x : (⟨S1, .f32⟩ : BufTy).Contents (Elt Ideal)) (j : S_.Idx) :
    shapeCast S_ x shapeCasts_S1_S_ j = s1 x := by
  unfold s1
  refine shapeCast_apply x shapeCasts_S1_S_ j (ix1 0) ?_
  exact (Nat.lt_one_iff.1 (S_.rowMajor j).isLt).trans (Nat.lt_one_iff.1 (S1.rowMajor (ix1 0)).isLt).symm

section
variable (x0 : (⟨S8192x256, .f32⟩ : BufTy).Contents (Elt Ideal)) (x1 : (⟨S8192x8192, .f32⟩ : BufTy).Contents (Elt Ideal))
  (x2 : (⟨S256x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 x7 x8 x9 x10 x11 : (⟨S1, .f32⟩ : BufTy).Contents (Elt Ideal)) (x12 : (⟨S8192, .f32⟩ : BufTy).Contents (Elt Ideal))

-- row e of either index array is (e, e), so the scatter adds its updates on the diagonal
theorem v14_at (i j : Fin 8192) : val_main_v14 (F := Ideal) x1 x12 (ix2 i j) = selfLoop (m2 x1) (m1 x12) i j :=
  scatterAdd_diag_apply scatter_S8192x8192_S8192x2_S8192_n_01_01_1 rfl rfl rfl rfl x1 (val_main_v13 (F := Ideal)) x12
    (fun e => ⟨wrap_toInt e, wrap_toInt e⟩) i j

theorem v15_at (i : Fin 8192) : val_main_v15 (F := Ideal) x1 x12 (ix1 i) = degR (m2 x1) (m1 x12) i := by
  rw [val_main_v15_apply]
  exact congrArg₂ (· + ·) Ideal.ofBits_zero_f32 (Finset.sum_congr rfl fun k _ =>
    (congrArg _ (ix2_of_vals _ i k rfl rfl)).trans (v14_at x1 x12 i k))

def LR : Fin 8192 → Fin 8192 → EReal :=
  lap (m2 x1) (m1 x12) (fun i => s1 x10 * Ideal.pow (degR (m2 x1) (m1 x12) i) (s1 x7))
    (fun i => Ideal.pow (degR (m2 x1) (m1 x12) i) (s1 x8))
    (fun i => s1 x9 * Ideal.pow (degR (m2 x1) (m1 x12) i) (s1 x6) + s1 x11)

theorem v53_at (i j : Fin 8192) :
    val_main_v53 (F := Ideal) x1 x6 x7 x8 x9 x10 x11 x12 (ix2 i j) = LR x1 x6 x7 x8 x9 x10 x11 x12 i j := by
  unfold val_main_v53
  rw [scatterAdd_diag_apply scatter_S8192x8192_S8192x2_S8192_n_01_01_1 rfl rfl rfl rfl _ (val_main_v52 (F := Ideal)) _
    (fun e => ⟨wrap_toInt e, wrap_toInt e⟩) i j, val_main_v30_apply, val_main_v27_apply, val_main_v26_apply, val_main_v25_apply, val_main_v29_apply,
    val_main_v28_apply, v14_at, ix1_of_val (idx_main_v25 (idx_main_v26 (ix2 i j))) i rfl,
    ix1_of_val (idx_main_v28 (idx_main_v29 (ix2 i j))) j rfl, val_main_v24_apply, val_main_v18_apply, v15_at,
    val_main_v17_apply, val_main_v23_apply, val_main_v21_apply, v15_at, val_main_v20_apply, val_main_v39_apply,
    val_main_v36_apply, val_main_v34_apply, v15_at, val_main_v33_apply, val_main_v35_apply, val_main_v38_apply]
  unfold val_main_v16 val_main_v22 val_main_v19 val_main_v31 val_main_v37 val_main_v32
  rw [reshape_at, reshape_at, reshape_at, reshape_at, reshape_at, reshape_at]
  rfl

theorem v54_at (i : Fin 8192) (c : Fin 128) : val_main_v54 (F := Ideal) x0 x2 (ix2 i c) = mm (m2 x0) (m2 x2) i c := by
  rw [val_main_v54_apply]
  unfold mm m2
  refine Finset.sum_congr rfl fun k _ => ?_
  rw [ix2_of_vals (lidx_main_v54 (ix2 i c) k) i k rfl rfl, ix2_of_vals (ridx_main_v54 (ix2 i c) k) k c rfl rfl]

def H1 (i : Fin 8192) (c : Fin 128) : EReal :=
  max (applyLap (LR x1 x6 x7 x8 x9 x10 x11 x12) (mm (m2 x0) (m2 x2)) i c + m1 x3 c) 0

theorem v59_at (i : Fin 8192) (c : Fin 128) :
    val_main_v59 (F := Ideal) x0 x1 x2 x3 x6 x7 x8 x9 x10 x11 x12 (ix2 i c) = H1 x0 x1 x2 x3 x6 x7 x8 x9 x10 x11 x12 i c := by
  have h55 : val_main_v55 (F := Ideal) x0 x1 x2 x6 x7 x8 x9 x10 x11 x12 (ix2 i c)
      = applyLap (LR x1 x6 x7 x8 x9 x10 x11 x12) (mm (m2 x0) (m2 x2)) i c := by
    rw [val_main_v55_apply]
    refine Finset.sum_congr rfl fun k _ => ?_
    rw [ix2_of_vals (lidx_main_v55 (ix2 i c) k) i k rfl rfl, ix2_of_vals (ridx_main_v55 (ix2 i c) k) k c rfl rfl,
      v53_at, v54_at]
  rw [val_main_v59_apply, val_main_v58_apply, h55, val_main_v57_apply, val_main_v56_apply,
    ix1_of_val (idx_main_v56 (idx_main_v57 (ix2 i c))) c rfl, val_main_call0_v0_apply, val_main_call0_cst_apply]
  show max (_ + _) (Ideal.ofBits .f32 0x00000000#32) = _
  rw [Ideal.ofBits_zero_f32]
  rfl

theorem v60_at (i : Fin 8192) (c : Fin 64) :
    val_main_v60 (F := Ideal) x0 x1 x2 x3 x4 x6 x7 x8 x9 x10 x11 x12 (ix2 i c) = mm (H1 x0 x1 x2 x3 x6 x7 x8 x9 x10 x11 x12) (m2 x4) i c := by
  rw [val_main_v60_apply]
  refine Finset.sum_congr rfl fun k _ => ?_
  rw [ix2_of_vals (lidx_main_v60 (ix2 i c) k) i k rfl rfl, ix2_of_vals (ridx_main_v60 (ix2 i c) k) k c rfl rfl, v59_at]
  rfl

theorem v64_eq : val_main_v64 (F := Ideal) x0 x1 x2 x3 x4 x5 x6 x7 x8 x9 x10 x11 x12 = logitsR x0 x1 x2 x3 x4 x5 x6 x7 x8 x9 x10 x11 x12 := by
  funext idx
  obtain ⟨i, c, rfl⟩ : ∃ i c, idx = ix2 i c := ⟨idx 0, idx 1, eq_ix2 idx⟩
  have h61 : val_main_v61 (F := Ideal) x0 x1 x2 x3 x4 x6 x7 x8 x9 x10 x11 x12 (ix2 i c)
      = applyLap (LR x1 x6 x7 x8 x9 x10 x11 x12) (mm (H1 x0 x1 x2 x3 x6 x7 x8 x9 x10 x11 x12) (m2 x4)) i c := by
    rw [val_main_v61_apply]
    refine Finset.sum_congr rfl fun k _ => ?_
    rw [ix2_of_vals (lidx_main_v61 (ix2 i c) k) i k rfl rfl, ix2_of_vals (ridx_main_v61 (ix2 i c) k) k c rfl rfl,
      v53_at, v60_at]
  rw [val_main_v64_apply, h61, val_main_v63_apply, val_main_v62_apply,
    ix1_of_val (idx_main_v62 (idx_main_v63 (ix2 i c))) c rfl]
  rfl

theorem ref_value : val_main_v65 (F := Ideal) x0 x1 x2 x3 x4 x5 x6 x7 x8 x9 x10 x11 x12 = lsmTail (logitsR x0 x1 x2 x3 x4 x5 x6 x7 x8 x9 x10 x11 x12) := by
  rw [← v64_eq]
  rfl

end

end Cert.RefValue

end
-- ==== Proof.Finite.lean ====
import proofs.«159937_j69277822484503_1_alg».proof.Pre_finite_inputs
import proofs.«159937_j69277822484503_1_alg».proof.Proof.Gen.Pre_finite_inputs
import proofs.«159937_j69277822484503_1_alg».proof.Proof.Spec
import Idealize.ShloMosaic.PureOps.Ideal
import Idealize.ShloMosaic.Lib.ReduceAll

noncomputable section

namespace Cert.Finite

open Idealize.ShloMosaic Cert.GcnSpec Cert.Pre_finite_inputs

theorem inf_pattern : Ideal.ofBits .f32 0x7F800000#32 = (⊤ : EReal) := by
  simp [Ideal.ofBits, Ideal.ieee]

theorem isReal_of_abs_lt_top (x : EReal) (hx : max x (-x) < ⊤) : IsReal x := by
  induction x using EReal.rec with
  | bot => exact absurd hx (by simp)
  | coe y => exact ⟨y, rfl⟩
  | top => exact absurd hx (by simp)

theorem ofBool_one {b : Bool} (hb : BitVec.ofBool b = 1#1) : b = true := by
  cases b
  · exact absurd hb (by decide)
  · rfl

theorem lt_of_cmp_olt {x y : EReal} (hc : Ideal.cmp .olt x y = 1#1) : x < y := by
  have hd : BitVec.ofBool (decide (x < y)) = 1#1 := hc
  exact of_decide_eq_true (ofBool_one hd)

instance : Subsingleton S_.Idx := ⟨fun a b => funext fun d => d.elim0⟩

-- an all-reduction by "and" that came out 1 met a 1 at every entry, and there |a i| < +∞
theorem all_real {s : Shape} {axes : List (Fin s.rank)} {hb : S_.BroadcastsInDim s (![] : Fin 0 → Fin s.rank)}
    {hr : s.ReducesTo axes S_} {hu : 0 < S_.numel} {a : FVec Ideal s .f32} {init : S_.Idx → BitVec 1} {j : S_.Idx}
    (e : Host.reduce IntOp.andi (cmpf .olt (Host.absf a) (broadcastInDim s ![] hb (constant (F := Ideal) S_ .f32 0x7F800000#32)))
      init hr hu j = 1#1) (i : s.Idx) : IsReal (a i) := by
  have hc : Ideal.cmp .olt (max (a i) (-(a i))) (Ideal.ofBits .f32 0x7F800000#32) = 1#1 :=
    Host.reduce_andi_all _ _ _ _ _ e i
  rw [inf_pattern] at hc
  exact isReal_of_abs_lt_top (a i) (lt_of_cmp_olt hc)

theorem real_of_pre [hP : Cert.Pre_finite_inputs.Facts]
    (a0 : FVec Ideal S8192x256 .f32) (a1 : FVec Ideal S8192x8192 .f32) (a2 : FVec Ideal S256x128 .f32) (a3 : FVec Ideal S128 .f32)
    (a4 : FVec Ideal S128x64 .f32) (a5 : FVec Ideal S64 .f32) (a6 a7 a8 a9 a10 a11 : FVec Ideal S1 .f32) (a12 : FVec Ideal S8192 .f32)
    (h : Cert.Pre_finite_inputs.fn (F := Ideal) a0 a1 a2 a3 a4 a5 a6 a7 a8 a9 a10 a11 a12 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) ∧ (∀ i, IsReal (a11 i)) ∧ (∀ i, IsReal (a12 i)) := by
  have h0 := congrFun h (fun d => d.elim0)
  simp only [fn, fn_part1, fn_part2, fn_part3, andi, IntOp.andi_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨all_real e0, all_real e1, all_real e2, all_real e3, all_real e4, all_real e5, all_real e6, all_real e7,
    all_real e8, all_real e9, all_real e10, all_real e11, all_real e12⟩

end Cert.Finite

end
-- ==== Proof.Claims.lean ====
import proofs.«159937_j69277822484503_1_alg».proof.Defs
import proofs.«159937_j69277822484503_1_alg».proof.Proof.Gen.Kernel
import proofs.«159937_j69277822484503_1_alg».proof.Proof.Gen.KernelIdeal
import proofs.«159937_j69277822484503_1_alg».proof.Proof.Gen.ReferenceIdeal
import proofs.«159937_j69277822484503_1_alg».proof.Proof.Gen.Pre_finite_inputs
import proofs.«159937_j69277822484503_1_alg».proof.Proof.KRunArgs
import proofs.«159937_j69277822484503_1_alg».proof.Proof.RunArgs
import proofs.«159937_j69277822484503_1_alg».proof.Proof.KernelValue
import proofs.«159937_j69277822484503_1_alg».proof.Proof.RefRun
import proofs.«159937_j69277822484503_1_alg».proof.Proof.RefValue
import proofs.«159937_j69277822484503_1_alg».proof.Proof.Finite

noncomputable section

open Idealize.ShloMosaic Idealize.ShloMosaic.TcCoe Idealize.SL.Sem

namespace Cert.Proof.Claims

theorem frame_k : Cert.frame_Kernel := fun m ρ _ => Kernel.Hand.frame_all m ρ

theorem frame_ki : Cert.frame_KernelIdeal := fun m ρ _ => KernelIdeal.Hand.frame_all m ρ

theorem frame_ri : Cert.frame_ReferenceIdeal := fun m ρ _ =>
  (θ_run ReferenceIdeal.defs _ _).mono (fun _ h c => (h c).2) (ReferenceIdeal.ValueP.run (F := Ideal) m ρ)

theorem preserves : Cert.preserves_Kernel_KernelIdeal := trivial

theorem tail_eq (z : FVec Ideal KernelIdeal.S8192x64 .f32) : KernelIdeal.Hand.tailK z = RefValue.lsmTail z := rfl

-- The common value is the fused program's own result; the precondition makes every input entry real, and there the two logits are equal.
open Cert.KernelIdeal Cert.KernelIdeal.Hand in
theorem algebraic : Cert.algebraic_KernelIdeal_ReferenceIdeal := by
  intro m ρ m' ρ' hpre hagree
  refine ⟨fun c => W9 (F := Ideal) m c main_v45, (θ_run defs _ _).mono (fun r h c => ?_) (run_all (F := Ideal) m ρ),
    (θ_run ReferenceIdeal.defs _ _).mono (fun _ h c => ⟨(h c).1.trans ?_, (h c).2⟩) (ReferenceIdeal.ValueP.run (F := Ideal) m' ρ')⟩
  · have g := fun (b : Ref sig .tc) hb => h c _ (mem_uc b hb)
    exact ⟨g main_v45 (by decide),
      (g main_arg0 (by decide)).trans (W9_main_arg0 m c),
      (g main_arg1 (by decide)).trans (W9_main_arg1 m c),
      (g main_arg2 (by decide)).trans (W9_main_arg2 m c),
      (g main_arg3 (by decide)).trans (W9_main_arg3 m c),
      (g main_arg4 (by decide)).trans (W9_main_arg4 m c),
      (g main_arg5 (by decide)).trans (W9_main_arg5 m c),
      (g main_arg6 (by decide)).trans (W9_main_arg6 m c),
      (g main_arg7 (by decide)).trans (W9_main_arg7 m c),
      (g main_arg8 (by decide)).trans (W9_main_arg8 m c),
      (g main_arg9 (by decide)).trans (W9_main_arg9 m c),
      (g main_arg10 (by decide)).trans (W9_main_arg10 m c),
      (g main_arg11 (by decide)).trans (W9_main_arg11 m c),
      (g main_arg12 (by decide)).trans (W9_main_arg12 m c)⟩
  · obtain ⟨e0, e1, e2, e3, e4, e5, e6, e7, e8, e9, e10, e11, e12⟩ := hagree c
    obtain ⟨r0, r1, r2, r3, r4, r5, r6, r7, r8, r9, r10, r11, r12⟩ := Finite.real_of_pre _ _ _ _ _ _ _ _ _ _ _ _ _ (hpre c)
    dsimp only
    rw [kernel_value, tail_eq, GcnAt.logits_eq_at _ _ _ _ _ _ _ _ _ _ _ _ _ r0 r1 r2 r3 r4 r5 r6 r7 r8 r9 r10 r11 r12, ← e0, ← e1, ← e2, ← e3, ← e4, ← e5, ← e6, ← e7, ← e8, ← e9, ← e10, ← e11, ← e12]
    exact Eq.trans (by unfold ReferenceIdeal.ValueP.res_main_v65; rfl) (RefValue.ref_value _ _ _ _ _ _ _ _ _ _ _ _ _)

end Cert.Proof.Claims

end
-- ==== Proof.lean ====
-- The two programs agree by the distributive law over the finite row sums of real entries,
-- the diagonal terms pulled out of the sums.
import proofs.«159937_j69277822484503_1_alg».proof.Proof.Claims

namespace Cert.Proof

theorem claim : Cert.Claim :=
  ⟨Kernel.Gen.facts, KernelIdeal.Gen.facts, ReferenceIdeal.Gen.facts, Pre_finite_inputs.Gen.facts,
    Claims.frame_k, Claims.frame_ki, Claims.frame_ri, Claims.preserves, Claims.algebraic⟩

end Cert.Proof
